-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  main_v54

def fn_part2 {F : FTy → Type} [FloatOps F] (main_arg1 : IVec S2x1600000 32) (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 4294867296#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg1
  let main_v49 : IVec S1600000 32 := shapeCast S1600000 main_v48 shapeCasts_S1x1600000_S1600000
  let main_c_17 : IVec S_ 32 := constantI S_ 32 100000#32
  let main_v50 : IVec S1600000 32 := broadcastInDim S1600000 ![] bcast_S_S1600000 main_c_17
  let main_v51 : IVec S1600000 1 := cmpi .slt main_v49 main_v50
  fn_part3 (F := F) main_v43 main_v47 main_v51

def fn_part1 {F : FTy → Type} [FloatOps F] (main_arg1 : IVec S2x1600000 32) (main_arg5 : FVec F S3x128 .f32) (main_arg6 : FVec F S3x128 .f32) (main_arg7 : FVec F S128x1 .f32) (main_arg8 : FVec F S128x1 .f32) (main_arg9 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg1 main_arg8 main_arg9 main_v33

def fn {F : FTy → Type} [FloatOps F] (main_arg0 : FVec F S100000x128 .f32) (main_arg1 : IVec S2x1600000 32) (main_arg2 : FVec F S3x128x128 .f32) (main_arg3 : FVec F S3x128x128 .f32) (main_arg4 : FVec F S3x128 .f32) (main_arg5 : FVec F S3x128 .f32) (main_arg6 : FVec F S3x128 .f32) (main_arg7 : FVec F S128x1 .f32) (main_arg8 : FVec F S128x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x1 : Shape := ⟨2, ![1, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2x128 : Shape := ⟨2, ![2, 128]⟩
abbrev S5000x128 : Shape := ⟨2, ![5000, 128]⟩
abbrev S5000x1 : Shape := ⟨2, ![5000, 1]⟩

abbrev nBuf : Space → Nat
  | .hbm => 257
  | .vmem => 63
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128x128, .f32⟩
  | 4 => ⟨S3x128, .f32⟩
  | 5 => ⟨S3x128, .f32⟩
  | 6 => ⟨S3x128, .f32⟩
  | 7 => ⟨S128x1, .f32⟩
  | 8 => ⟨S128x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S100000x1, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1, .i32⟩
  | 43 => ⟨S_, .i32⟩
  | 44 => ⟨S1600000x1, .i32⟩
  | 45 => ⟨S1600000x1, .i1⟩
  | 46 => ⟨S1x1, .i32⟩
  | 47 => ⟨S1600000x1, .i32⟩
  | 48 => ⟨S1600000x1, .i1⟩
  | 49 => ⟨S1600000x1, .i1⟩
  | 50 => ⟨S_, .i1⟩
  | 51 => ⟨S1600000, .i1⟩
  | 52 => ⟨S1600000x128, .f32⟩
  | 53 => ⟨S1600000x128, .i1⟩
  | 54 => ⟨S_, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x128, .f32⟩
  | 62 => ⟨S100000x128, .f32⟩
  | 63 => ⟨S1x128x128, .f32⟩
  | 64 => ⟨S128x128, .f32⟩
  | 65 => ⟨S1x128x128, .f32⟩
  | 66 => ⟨S128x128, .f32⟩
  | 67 => ⟨S1x128, .f32⟩
  | 68 => ⟨S128, .f32⟩
  | 69 => ⟨S1x128, .f32⟩
  | 70 => ⟨S100000x128, .f32⟩
  | 71 => ⟨S2x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S128, .f32⟩
  | 84 => ⟨S1x128, .f32⟩
  | 85 => ⟨S128, .f32⟩
  | 86 => ⟨S_, .f32⟩
  | 87 => ⟨S128, .f32⟩
  | 88 => ⟨S128, .f32⟩
  | 89 => ⟨S128, .f32⟩
  | 90 => ⟨S128, .f32⟩
  | 91 => ⟨S1x128, .f32⟩
  | 92 => ⟨S128, .f32⟩
  | 93 => ⟨S128, .f32⟩
  | 94 => ⟨S128, .f32⟩
  | 95 => ⟨S1x128, .f32⟩
  | 96 => ⟨S1x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1, .i32⟩
  | 107 => ⟨S_, .i32⟩
  | 108 => ⟨S1600000x1, .i32⟩
  | 109 => ⟨S1600000x1, .i1⟩
  | 110 => ⟨S1x1, .i32⟩
  | 111 => ⟨S1600000x1, .i32⟩
  | 112 => ⟨S1600000x1, .i1⟩
  | 113 => ⟨S1600000x1, .i1⟩
  | 114 => ⟨S_, .i1⟩
  | 115 => ⟨S1600000, .i1⟩
  | 116 => ⟨S1600000x128, .f32⟩
  | 117 => ⟨S1600000x128, .i1⟩
  | 118 => ⟨S_, .f32⟩
  | 119 => ⟨S1600000x128, .f32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x128, .f32⟩
  | 126 => ⟨S100000x128, .f32⟩
  | 127 => ⟨S1x128x128, .f32⟩
  | _ => ⟨S100000x128, .f32⟩

abbrev hbmTy0_1 (i : Nat) : BufTy := match i % 128 with
  | 0 => ⟨S128x128, .f32⟩
  | 1 => ⟨S1x128x128, .f32⟩
  | 2 => ⟨S128x128, .f32⟩
  | 3 => ⟨S1x128, .f32⟩
  | 4 => ⟨S128, .f32⟩
  | 5 => ⟨S1x128, .f32⟩
  | 6 => ⟨S100000x128, .f32⟩
  | 7 => ⟨S2x128, .f32⟩
  | 8 => ⟨S1x128, .f32⟩
  | 9 => ⟨S128, .f32⟩
  | 10 => ⟨S1x128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S128, .f32⟩
  | 19 => ⟨S128, .f32⟩
  | 20 => ⟨S1x128, .f32⟩
  | 21 => ⟨S128, .f32⟩
  | 22 => ⟨S_, .f32⟩
  | 23 => ⟨S128, .f32⟩
  | 24 => ⟨S128, .f32⟩
  | 25 => ⟨S128, .f32⟩
  | 26 => ⟨S128, .f32⟩
  | 27 => ⟨S1x128, .f32⟩
  | 28 => ⟨S128, .f32⟩
  | 29 => ⟨S128, .f32⟩
  | 30 => ⟨S128, .f32⟩
  | 31 => ⟨S1x128, .f32⟩
  | 32 => ⟨S1x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1, .i32⟩
  | 43 => ⟨S_, .i32⟩
  | 44 => ⟨S1600000x1, .i32⟩
  | 45 => ⟨S1600000x1, .i1⟩
  | 46 => ⟨S1x1, .i32⟩
  | 47 => ⟨S1600000x1, .i32⟩
  | 48 => ⟨S1600000x1, .i1⟩
  | 49 => ⟨S1600000x1, .i1⟩
  | 50 => ⟨S_, .i1⟩
  | 51 => ⟨S1600000, .i1⟩
  | 52 => ⟨S1600000x128, .f32⟩
  | 53 => ⟨S1600000x128, .i1⟩
  | 54 => ⟨S_, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x128, .f32⟩
  | 62 => ⟨S100000x128, .f32⟩
  | 63 => ⟨S1x128x128, .f32⟩
  | 64 => ⟨S128x128, .f32⟩
  | 65 => ⟨S1x128x128, .f32⟩
  | 66 => ⟨S128x128, .f32⟩
  | 67 => ⟨S1x128, .f32⟩
  | 68 => ⟨S128, .f32⟩
  | 69 => ⟨S1x128, .f32⟩
  | 70 => ⟨S100000x128, .f32⟩
  | 71 => ⟨S2x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S128, .f32⟩
  | 84 => ⟨S1x128, .f32⟩
  | 85 => ⟨S128, .f32⟩
  | 86 => ⟨S_, .f32⟩
  | 87 => ⟨S128, .f32⟩
  | 88 => ⟨S128, .f32⟩
  | 89 => ⟨S128, .f32⟩
  | 90 => ⟨S128, .f32⟩
  | 91 => ⟨S1x128, .f32⟩
  | 92 => ⟨S128, .f32⟩
  | 93 => ⟨S128, .f32⟩
  | 94 => ⟨S128, .f32⟩
  | 95 => ⟨S1x128, .f32⟩
  | 96 => ⟨S1x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1, .i32⟩
  | 107 => ⟨S_, .i32⟩
  | 108 => ⟨S1600000x1, .i32⟩
  | 109 => ⟨S1600000x1, .i1⟩
  | 110 => ⟨S1x1, .i32⟩
  | 111 => ⟨S1600000x1, .i32⟩
  | 112 => ⟨S1600000x1, .i1⟩
  | 113 => ⟨S1600000x1, .i1⟩
  | 114 => ⟨S_, .i1⟩
  | 115 => ⟨S1600000, .i1⟩
  | 116 => ⟨S1600000x128, .f32⟩
  | 117 => ⟨S1600000x128, .i1⟩
  | 118 => ⟨S_, .f32⟩
  | 119 => ⟨S1600000x128, .f32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x128, .f32⟩
  | 126 => ⟨S100000x128, .f32⟩
  | 127 => ⟨S1x1, .f32⟩
  | _ => ⟨S100000x128, .f32⟩

abbrev hbmTy0_2 (i : Nat) : BufTy := match i % 128 with
  | 0 => ⟨S100000x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S2x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S2x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S2x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x1, .f32⟩
  | .local _ .vmem, ⟨59, _⟩ => ⟨S128x1, .f32⟩
  | .local _ .vmem, ⟨60, _⟩ => ⟨S1x1, .f32⟩
  | .local _ .vmem, ⟨61, _⟩ => ⟨S5000x1, .f32⟩
  | .local _ .vmem, ⟨62, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v16 : Ref sig .tc := ⟨.hbm, 56, rfl⟩
abbrev main_cst_5 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29_0 : Ref sig .tc := ⟨.hbm, 70, rfl⟩
abbrev main_v29_1 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_6 : Ref sig .tc := ⟨.hbm, 76, rfl⟩
abbrev main_v34 : Ref sig .tc := ⟨.hbm, 77, rfl⟩
abbrev main_v35 : Ref sig .tc := ⟨.hbm, 78, rfl⟩
abbrev main_cst_7 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_8 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v53 : Ref sig .tc := ⟨.hbm, 120, rfl⟩
abbrev main_cst_9 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66_0 : Ref sig .tc := ⟨.hbm, 134, rfl⟩
abbrev main_v66_1 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_cst_10 : Ref sig .tc := ⟨.hbm, 140, rfl⟩
abbrev main_v71 : Ref sig .tc := ⟨.hbm, 141, rfl⟩
abbrev main_v72 : Ref sig .tc := ⟨.hbm, 142, rfl⟩
abbrev main_cst_11 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_12 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_call3_c : Ref sig .tc := ⟨.hbm, 162, rfl⟩
abbrev main_call3_v0 : Ref sig .tc := ⟨.hbm, 163, rfl⟩
abbrev main_call3_v1 : Ref sig .tc := ⟨.hbm, 164, rfl⟩
abbrev main_call3_c_0 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_c_1 : Ref sig .tc := ⟨.hbm, 170, rfl⟩
abbrev main_call3_c_2 : Ref sig .tc := ⟨.hbm, 171, rfl⟩
abbrev main_call3_v6 : Ref sig .tc := ⟨.hbm, 172, rfl⟩
abbrev main_call3_v7 : Ref sig .tc := ⟨.hbm, 173, rfl⟩
abbrev main_call3_v8 : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_c_3 : Ref sig .tc := ⟨.hbm, 178, rfl⟩
abbrev main_call3_v12 : Ref sig .tc := ⟨.hbm, 179, rfl⟩
abbrev main_call3_v13 : Ref sig .tc := ⟨.hbm, 180, rfl⟩
abbrev main_call3_v14 : Ref sig .tc := ⟨.hbm, 181, rfl⟩
abbrev main_call3_cst : Ref sig .tc := ⟨.hbm, 182, rfl⟩
abbrev main_call3_v15 : Ref sig .tc := ⟨.hbm, 183, rfl⟩
abbrev main_v90 : Ref sig .tc := ⟨.hbm, 184, rfl⟩
abbrev main_cst_13 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103_0 : Ref sig .tc := ⟨.hbm, 198, rfl⟩
abbrev main_v103_1 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_cst_14 : Ref sig .tc := ⟨.hbm, 204, rfl⟩
abbrev main_v108 : Ref sig .tc := ⟨.hbm, 205, rfl⟩
abbrev main_v109 : Ref sig .tc := ⟨.hbm, 206, rfl⟩
abbrev main_cst_15 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_cst_16 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_call4_c : Ref sig .tc := ⟨.hbm, 226, rfl⟩
abbrev main_call4_v0 : Ref sig .tc := ⟨.hbm, 227, rfl⟩
abbrev main_call4_v1 : Ref sig .tc := ⟨.hbm, 228, rfl⟩
abbrev main_call4_c_0 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_c_1 : Ref sig .tc := ⟨.hbm, 234, rfl⟩
abbrev main_call4_c_2 : Ref sig .tc := ⟨.hbm, 235, rfl⟩
abbrev main_call4_v6 : Ref sig .tc := ⟨.hbm, 236, rfl⟩
abbrev main_call4_v7 : Ref sig .tc := ⟨.hbm, 237, rfl⟩
abbrev main_call4_v8 : Ref sig .tc := ⟨.hbm, 238, rfl⟩
abbrev main_call4_v9 : Ref sig .tc := ⟨.hbm, 239, rfl⟩
abbrev main_call4_v10 : Ref sig .tc := ⟨.hbm, 240, rfl⟩
abbrev main_call4_v11 : Ref sig .tc := ⟨.hbm, 241, rfl⟩
abbrev main_call4_c_3 : Ref sig .tc := ⟨.hbm, 242, rfl⟩
abbrev main_call4_v12 : Ref sig .tc := ⟨.hbm, 243, rfl⟩
abbrev main_call4_v13 : Ref sig .tc := ⟨.hbm, 244, rfl⟩
abbrev main_call4_v14 : Ref sig .tc := ⟨.hbm, 245, rfl⟩
abbrev main_call4_cst : Ref sig .tc := ⟨.hbm, 246, rfl⟩
abbrev main_call4_v15 : Ref sig .tc := ⟨.hbm, 247, rfl⟩
abbrev main_v127 : Ref sig .tc := ⟨.hbm, 248, rfl⟩
abbrev main_cst_17 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc4_stg6_0 : Ref sig .tc := ⟨.vmem, 45, rfl⟩
abbrev cc4_scratch0 : Ref sig .tc := ⟨.vmem, 46, rfl⟩
abbrev cc4_scratch1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40
abbrev cc4_sem6_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem5_1 : DmaSem sig := 56

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v39 : BitVec 1 := Scalar.cmpi .eq arg0 c19_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v40 : BitVec 1 := Scalar.cmpi .eq arg0 c19_i32
  let v41 : BitVec 32 := Scalar.extui v40
  let c0_i32_24 : BitVec 32 := 0#32
  let v42 : BitVec 1 := Scalar.cmpi .ne v41 c0_i32_24
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v40 : BitVec 1 := Scalar.cmpi .eq arg0 c19_i32
  let v41 : BitVec 32 := Scalar.extui v40
  let c0_i32_24 : BitVec 32 := 0#32
  let v42 : BitVec 1 := Scalar.cmpi .ne v41 c0_i32_24
  v42

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S2x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S2x128_S1x128_0_0 : S2x128.Slices ![0, 0] S1x128
  slices_S2x128_S1x128_1_0 : S2x128.Slices ![1, 0] S1x128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2x128.size a ≤ S2x128.size a
  hwx2_6 : ∀ i : grid2.Coords, EltTy.bits .f32 = 32 ∨ (Rect.block (s := S2x128) S2x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S2x128.size a ≤ S2x128.size a
  hwx4_6 : ∀ i : grid4.Coords, EltTy.bits .f32 = 32 ∨ (Rect.block (s := S2x128) S2x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x1.size a ≤ S128x1.size a
  hwx6_2 : ∀ i : grid6.Coords, EltTy.bits .f32 = 32 ∨ (Rect.block (s := S128x1) S128x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S100000x1.size a
  hwx6_5 : ∀ i : grid6.Coords, EltTy.bits .f32 = 32 ∨ (Rect.block (s := S100000x1) S5000x1.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29_1) S2x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v29_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v66_1) S2x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v66_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v95) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v97) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v99) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v102) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v103_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v103_1) S2x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v103_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v125) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v126) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v132) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v126) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S128x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg8) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v133) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v134) S5000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S1x1 : Shape := ⟨2, ![1, 1]⟩

abbrev nBuf : Space → Nat
  | .hbm => 255
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128x128, .f32⟩
  | 4 => ⟨S3x128, .f32⟩
  | 5 => ⟨S3x128, .f32⟩
  | 6 => ⟨S3x128, .f32⟩
  | 7 => ⟨S128x1, .f32⟩
  | 8 => ⟨S128x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S100000x1, .f32⟩
  | 34 => ⟨S1x128x128, .f32⟩
  | 35 => ⟨S128x128, .f32⟩
  | 36 => ⟨S1x128x128, .f32⟩
  | 37 => ⟨S128x128, .f32⟩
  | 38 => ⟨S1x128, .f32⟩
  | 39 => ⟨S128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S100000x128, .f32⟩
  | 54 => ⟨S100000x128, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S1x128, .f32⟩
  | 65 => ⟨S128, .f32⟩
  | 66 => ⟨S1x128, .f32⟩
  | 67 => ⟨S128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128x128, .f32⟩
  | 99 => ⟨S128x128, .f32⟩
  | 100 => ⟨S1x128x128, .f32⟩
  | 101 => ⟨S128x128, .f32⟩
  | 102 => ⟨S1x128, .f32⟩
  | 103 => ⟨S128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S100000x128, .f32⟩
  | 118 => ⟨S100000x128, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S1x128x128, .f32⟩
  | 35 => ⟨S128x128, .f32⟩
  | 36 => ⟨S1x128x128, .f32⟩
  | 37 => ⟨S128x128, .f32⟩
  | 38 => ⟨S1x128, .f32⟩
  | 39 => ⟨S128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S100000x128, .f32⟩
  | 54 => ⟨S100000x128, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S1x128, .f32⟩
  | 65 => ⟨S128, .f32⟩
  | 66 => ⟨S1x128, .f32⟩
  | 67 => ⟨S128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x128, .f32⟩
  | 112 => ⟨S100000x128, .f32⟩
  | 113 => ⟨S100000x1, .f32⟩
  | 114 => ⟨S100000x1, .f32⟩
  | 115 => ⟨S100000x1, .f32⟩
  | 116 => ⟨S1x1, .f32⟩
  | 117 => ⟨S100000x1, .f32⟩
  | 118 => ⟨S100000x1, .f32⟩
  | 119 => ⟨S100000x1, .f32⟩
  | 120 => ⟨S100000x1, .f32⟩
  | 121 => ⟨S_, .f32⟩
  | 122 => ⟨S100000x1, .f32⟩
  | 123 => ⟨S100000x1, .f32⟩
  | 124 => ⟨S_, .f32⟩
  | 125 => ⟨S100000x1, .f32⟩
  | 126 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_cst : Ref sig .tc := ⟨.hbm, 61, rfl⟩
abbrev main_call1_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_12 : Ref sig .tc := ⟨.hbm, 104, rfl⟩
abbrev main_v76 : Ref sig .tc := ⟨.hbm, 105, rfl⟩
abbrev main_v77 : Ref sig .tc := ⟨.hbm, 106, rfl⟩
abbrev main_c_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_call2_cst : Ref sig .tc := ⟨.hbm, 125, rfl⟩
abbrev main_call2_v0 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_15 : Ref sig .tc := ⟨.hbm, 132, rfl⟩
abbrev main_v99 : Ref sig .tc := ⟨.hbm, 133, rfl⟩
abbrev main_cst_16 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_17 : Ref sig .tc := ⟨.hbm, 141, rfl⟩
abbrev main_v106 : Ref sig .tc := ⟨.hbm, 142, rfl⟩
abbrev main_cst_18 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_19 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_c_20 : Ref sig .tc := ⟨.hbm, 168, rfl⟩
abbrev main_v130 : Ref sig .tc := ⟨.hbm, 169, rfl⟩
abbrev main_v131 : Ref sig .tc := ⟨.hbm, 170, rfl⟩
abbrev main_c_21 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_22 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_call3_cst : Ref sig .tc := ⟨.hbm, 189, rfl⟩
abbrev main_call3_v0 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_23 : Ref sig .tc := ⟨.hbm, 196, rfl⟩
abbrev main_v153 : Ref sig .tc := ⟨.hbm, 197, rfl⟩
abbrev main_cst_24 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_25 : Ref sig .tc := ⟨.hbm, 205, rfl⟩
abbrev main_v160 : Ref sig .tc := ⟨.hbm, 206, rfl⟩
abbrev main_cst_26 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_27 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_c_28 : Ref sig .tc := ⟨.hbm, 226, rfl⟩
abbrev main_v178 : Ref sig .tc := ⟨.hbm, 227, rfl⟩
abbrev main_v179 : Ref sig .tc := ⟨.hbm, 228, rfl⟩
abbrev main_c_29 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_cst_30 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_cst_31 : Ref sig .tc := ⟨.hbm, 249, rfl⟩
abbrev main_v198 : Ref sig .tc := ⟨.hbm, 250, rfl⟩
abbrev main_v199 : Ref sig .tc := ⟨.hbm, 251, rfl⟩
abbrev main_cst_32 : Ref sig .tc := ⟨.hbm, 252, rfl⟩
abbrev main_v200 : Ref sig .tc := ⟨.hbm, 253, rfl⟩
abbrev main_v201 : Ref sig .tc := ⟨.hbm, 254, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.K.Affine1.lean ====
import proofs.«418208_j66958540145299_1_alg».proof.Proof.Gen.Kernel.Launch
import proofs.«418208_j66958540145299_1_alg».proof.Proof.Gen.Kernel.Skeleton
import proofs.«418208_j66958540145299_1_alg».proof.Proof.Gen.Kernel.Points
import Idealize.ShloMosaic.Lib.Pipeline.FrameBody
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_whole : Rect S5000x128 := Rect.unit (s := S5000x128) ![0, 0] S5000x128.size inb_S5000x128_S5000x128_0_0

/-- What the affine kernel's one store leaves in its result buffer, as a function of the three input buffers' contents. -/
def out1_3 (x0 : Vec F S5000x128 .f32) (x1 : Vec F S1x128 .f32) (x2 : Vec F S1x128 .f32) : Vec F S5000x128 .f32 :=
  View.canon [⟨r1_whole, k1_pay1 (View.ld x0 r1_whole) (View.ld x1 (Rect.unit (s := S1x128) ![0, 0] S1x128.size inb_S1x128_S1x128_0_0)) (View.ld x2 (Rect.unit (s := S1x128) ![0, 0] S1x128.size inb_S1x128_S1x128_0_0))⟩]

theorem cover1_3 (p0 : Vec F S5000x128 .f32) (y : S5000x128.Idx) :
    ∃ pc ∈ ([⟨r1_whole, p0⟩] : List (View.Piece (Elt F) S5000x128 .f32)), y ∈ pc.1.set :=
  View.cover_of_tiled [⟨r1_whole, p0⟩] S5000x128.size (by rfl) y

set_option maxHeartbeats 1000000 in
/-- The affine kernel on any whole memrefs keeps its inputs and ends with out1_3 of them in the result: the store covers the buffer. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bn_apply_kernel i arg1 harg1 arg2 harg2 arg3 harg3 arg4 harg4) K := by
  simp only [cc1__bn_apply_kernel_eq_skeleton]; unfold cc1__bn_apply_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ (cover1_3 _)

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data at entry contents V: each input buffer keeps its block, the result's ends at out1_3 of the point's blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2]
  dsimp only [dat1]
  show _ ⊢ wp _ _ _ (bodyAt1 t) _
  iintro ⟨HΦ, Ho, ⟨%d0, H0⟩, ⟨%d1, H1⟩, ⟨%d2, H2⟩, %d3, H3⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe
  iexact Ho

end Cert.Kernel.Reg

end
-- ==== Proof.K.Affine3.lean ====
import proofs.«418208_j66958540145299_1_alg».proof.Proof.K.Affine1

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Region 3 runs the same kernel function as region 1, under another name. -/
theorem kernel3_eq : @cc3__bn_apply_kernel F _ = @cc1__bn_apply_kernel F _ := rfl

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The region's proof data at entry contents V: each input buffer keeps its block, the result's ends at out1_3 of the point's blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out1_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = out1_3 (iblk3 V c 0 t) (iblk3 V c 1 t) (iblk3 V c 2 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp only [before3_0, before3_1, before3_2]
  dsimp only [dat3]
  show _ ⊢ wp _ _ _ (bodyAt3 t) _
  unfold bodyAt3
  rewrite [kernel3_eq]
  iintro ⟨HΦ, Ho, ⟨%d0, H0⟩, ⟨%d1, H1⟩, ⟨%d2, H2⟩, %d3, H3⟩
  iapply (sound_kernel1 c Set.univ _ _ _ _ _ _ _ _ _ (iblk3 V c 0 t) (iblk3 V c 1 t) (iblk3 V c 2 t) _)
  iframe H0 H1 H2
  isplitl [H3]; · iexists _; iexact H3
  iintro ⟨H0, H1, H2, H3⟩
  iframe
  iexact Ho

end Cert.Kernel.Reg

end
-- ==== Proof.K.Affine5.lean ====
import proofs.«418208_j66958540145299_1_alg».proof.Proof.K.Affine1

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Region 5 runs the same kernel function as region 1, under another name. -/
theorem kernel5_eq : @cc5__bn_apply_kernel F _ = @cc1__bn_apply_kernel F _ := rfl

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The region's proof data at entry contents V: each input buffer keeps its block, the result's ends at out1_3 of the point's blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out1_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := rfl

theorem after5_3 (c : Dev nD) (t : Fin cfg5.N) :
    (dat5 V c).after 3 t = out1_3 (iblk5 V c 0 t) (iblk5 V c 1 t) (iblk5 V c 2 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp only [before5_0, before5_1, before5_2]
  dsimp only [dat5]
  show _ ⊢ wp _ _ _ (bodyAt5 t) _
  unfold bodyAt5
  rewrite [kernel5_eq]
  iintro ⟨HΦ, Ho, ⟨%d0, H0⟩, ⟨%d1, H1⟩, ⟨%d2, H2⟩, %d3, H3⟩
  iapply (sound_kernel1 c Set.univ _ _ _ _ _ _ _ _ _ (iblk5 V c 0 t) (iblk5 V c 1 t) (iblk5 V c 2 t) _)
  iframe H0 H1 H2
  isplitl [H3]; · iexists _; iexact H3
  iintro ⟨H0, H1, H2, H3⟩
  iframe
  iexact Ho

end Cert.Kernel.Reg

end
-- ==== Proof.K.Sigmoid6.lean ====
import proofs.«418208_j66958540145299_1_alg».proof.Proof.Gen.Kernel.Launch
import proofs.«418208_j66958540145299_1_alg».proof.Proof.Gen.Kernel.Skeleton
import proofs.«418208_j66958540145299_1_alg».proof.Proof.Gen.Kernel.Points
import Idealize.ShloMosaic.Lib.Pipeline.FrameBody
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_whole : Rect S5000x1 := Rect.unit (s := S5000x1) ![0, 0] S5000x1.size inb_S5000x1_S5000x1_0_0
abbrev r6_rows : Rect S5000x128 := Rect.unit (s := S5000x128) ![0, 0] S5000x128.size inb_S5000x128_S5000x128_0_0
abbrev r6_col : Rect S128x1 := Rect.unit (s := S128x1) ![0, 0] S128x1.size inb_S128x1_S128x1_0_0
abbrev r6_one : Rect S1x1 := Rect.unit (s := S1x1) ![0, 0] S1x1.size inb_S1x1_S1x1_0_0

/-- What the output kernel's one store leaves in its result buffer, as a function of the five input buffers' contents. -/
def out6_5 (x0 : Vec F S5000x128 .f32) (x1 : Vec F S5000x128 .f32) (x2 : Vec F S128x1 .f32) (x3 : Vec F S128x1 .f32) (x4 : Vec F S1x1 .f32) :
    Vec F S5000x1 .f32 :=
  View.canon [⟨r6_whole, k6_pay1 (View.ld x0 r6_rows) (View.ld x1 r6_rows) (View.ld x2 r6_col) (View.ld x3 r6_col) (View.ld x4 r6_one)⟩]

theorem cover6_5 (p0 : Vec F S5000x1 .f32) (y : S5000x1.Idx) :
    ∃ pc ∈ ([⟨r6_whole, p0⟩] : List (View.Piece (Elt F) S5000x1 .f32)), y ∈ pc.1.set :=
  View.cover_of_tiled [⟨r6_whole, p0⟩] S5000x1.size (by rfl) y

set_option maxHeartbeats 1000000 in
/-- The output kernel on any whole memrefs keeps its inputs and ends with out6_5 of them in the result: the store covers the buffer. -/
theorem sound_kernel6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S5000x1 .f32) (harg6 : arg6.IsWhole)
    (x0 : Vec F S5000x128 .f32) (x1 : Vec F S5000x128 .f32) (x2 : Vec F S128x1 .f32) (x3 : Vec F S128x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__combine_sigmoid_kernel i arg1 harg1 arg2 harg2 arg3 harg3 arg4 harg4 arg5 harg5 arg6 harg6) K := by
  simp only [cc6__combine_sigmoid_kernel_eq_skeleton]; unfold cc6__combine_sigmoid_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact View.read_writes_eq_canon _ _ _ (cover6_5 _)

/-- The region's proof data at entry contents V: each input buffer keeps its block, the result's ends at out6_5 of the point's blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl

theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (c : Dev nD) (t : Fin cfg6.N) (d) : (dat6 V c).before 4 t d = iblk6 V c 4 t :=
  (dat6 V c).before_in_eq_fetched 4 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  simp only [before6_0, before6_1, before6_2, before6_3, before6_4]
  dsimp only [dat6]
  show _ ⊢ wp _ _ _ (bodyAt6 t) _
  iintro ⟨HΦ, Ho, ⟨%d0, H0⟩, ⟨%d1, H1⟩, ⟨%d2, H2⟩, ⟨%d3, H3⟩, ⟨%d4, H4⟩, %d5, H5⟩
  iapply (sound_kernel6 c Set.univ _ _ _ _ _ _ _ _ _ _ _ _ _
    (iblk6 V c 0 t) (iblk6 V c 1 t) (iblk6 V c 2 t) (iblk6 V c 3 t) (iblk6 V c 4 t) _)
  iframe H0 H1 H2 H3 H4
  isplitl [H5]; · iexists _; iexact H5
  iintro ⟨H0, H1, H2, H3, H4, H5⟩
  iframe
  iexact Ho

end Cert.Kernel.Reg

end
-- ==== Proof.K.Stats0.lean ====
import proofs.«418208_j66958540145299_1_alg».proof.Proof.Gen.Kernel.Launch
import proofs.«418208_j66958540145299_1_alg».proof.Proof.Gen.Kernel.Skeleton
import proofs.«418208_j66958540145299_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop :=
  (Scalar.cmpi .ne (Scalar.extui (Scalar.cmpi .eq (BitVec.ofNat 32 (i 0).val) 0#32)) 0#32) = 1#1

theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1

theorem hcond0_1 : ∀ t : Fin cfg0.N, cond0_1 (grid0.coords t) ↔ t.val % 20 = 19 :=
  (by decide +kernel : ∀ t : Fin grid0.N, cond0_1 (grid0.coords t) ↔ t.val % 20 = 19)

theorem liveAt0 : ∀ w : Fin cfg0.W, w.val < 6 → ∀ t : Fin cfg0.N, cfg0.idle w (grid0.coords t) = false := by decide +kernel

theorem idleAt0_6 : ∀ t : Fin cfg0.N, ¬cond0_1 (grid0.coords t) → cfg0.idle 6 (grid0.coords t) = true := by decide +kernel

theorem noFlush0_6 : ∀ t : Fin cfg0.N, ¬cond0_1 (grid0.coords t) → (cfg0.win 6).flush t = false := by decide +kernel

theorem liveAt0_6 : ∀ t : Fin cfg0.N, cond0_1 (grid0.coords t) → cfg0.idle 6 (grid0.coords t) = false := by decide +kernel

def sum0 (x0 x1 : Vec F S5000x128 .f32) (x2 x3 : Vec F S128x128 .f32) (x4 : Vec F S1x128 .f32) (s : Vec F S1x128 .f32) : Vec F S1x128 .f32 :=
  k0_pay5 x0 x1 x2 x3 x4 s

def sq0 (x0 x1 : Vec F S5000x128 .f32) (x2 x3 : Vec F S128x128 .f32) (x4 : Vec F S1x128 .f32) (q : Vec F S1x128 .f32) : Vec F S1x128 .f32 :=
  k0_pay1 (k0_pay4 x0 x1 x2 x3 x4) q

abbrev r0_big : Rect S5000x128 := Rect.unit (s := S5000x128) ![0, 0] S5000x128.size inb_S5000x128_S5000x128_0_0
abbrev r0_mat : Rect S128x128 := Rect.unit (s := S128x128) ![0, 0] S128x128.size inb_S128x128_S128x128_0_0
abbrev r0_row : Rect S1x128 := Rect.unit (s := S1x128) ![0, 0] S1x128.size inb_S1x128_S1x128_0_0
abbrev r0_st0 : Rect S2x128 := Rect.unit (s := S2x128) ![0, 0] S1x128.size inb_S2x128_S1x128_0_0
abbrev r0_st1 : Rect S2x128 := Rect.unit (s := S2x128) ![1, 0] S1x128.size inb_S2x128_S1x128_1_0

def out0_5 (x0 x1 : Vec F S5000x128 .f32) (x2 x3 : Vec F S128x128 .f32) (x4 : Vec F S1x128 .f32) : Vec F S5000x128 .f32 :=
  View.canon [⟨r0_big, k0_pay4 (View.ld x0 r0_big) (View.ld x1 r0_big) (View.ld x2 r0_mat) (View.ld x3 r0_mat) (View.ld x4 r0_row)⟩]

def out0_6 (s q : Vec F S1x128 .f32) : Vec F S2x128 .f32 :=
  View.canon [⟨r0_st1, q⟩, ⟨r0_st0, s⟩]

theorem zeros0 : (![0, 0] : Fin 2 → ℕ) = fun _ => 0 := by funext a; fin_cases a <;> rfl

theorem readAt_unit_zero0 {sig' : RefSig} {κ : Kind} {sp : Space} {S : Shape} {e : EltTy} {Val : EltTy → Type}
    (v : View sig' κ sp S e) {off : Fin S.rank → Nat} (h : off = fun _ => 0) (inb : ∀ a, off a + S.size a ≤ S.size a)
    (f : v.ty.Contents Val) : v.readAt Val (Rect.unit off S.size inb).toLoadRect f = v.read Val f :=
  View.ld_unit_zero h inb (v.read Val f)

theorem out0_5_eq (x0 x1 : Vec F S5000x128 .f32) (x2 x3 : Vec F S128x128 .f32) (x4 : Vec F S1x128 .f32) :
    out0_5 x0 x1 x2 x3 x4 = k0_pay4 x0 x1 x2 x3 x4 := by
  unfold out0_5
  rw [View.canon_unit_zero (S := S5000x128) zeros0]
  rw [View.ld_unit_zero (S := S5000x128) zeros0, View.ld_unit_zero (S := S5000x128) zeros0, View.ld_unit_zero (S := S128x128) zeros0,
    View.ld_unit_zero (S := S128x128) zeros0, View.ld_unit_zero (S := S1x128) zeros0]

theorem cover0_5 (p0 : Vec F S5000x128 .f32) (y : S5000x128.Idx) :
    ∃ pc ∈ ([⟨r0_big, p0⟩] : List (View.Piece (Elt F) S5000x128 .f32)), y ∈ pc.1.set :=
  View.cover_of_tiled [⟨r0_big, p0⟩] S5000x128.size (by rfl) y

theorem cover0_6 (p0 p1 : Vec F S1x128 .f32) (y : S2x128.Idx) :
    ∃ pc ∈ ([⟨r0_st1, p1⟩, ⟨r0_st0, p0⟩] : List (View.Piece (Elt F) S2x128 .f32)), y ∈ pc.1.set :=
  View.cover_of_tiled [⟨r0_st1, p1⟩, ⟨r0_st0, p0⟩] S1x128.size (by rfl) y

theorem read_row0 (v : View sig .tc .vmem S1x128 .f32) (f : v.ty.Contents (Elt F)) (w : Vec F S1x128 .f32)
    (L : List (View.Piece (Elt F) S1x128 .f32)) : v.read (Elt F) (v.writes (Elt F) f (⟨r0_row, w⟩ :: L)) = w := by
  have hc : ∀ y : S1x128.Idx, ∃ p ∈ ((⟨r0_row, w⟩ : View.Piece (Elt F) S1x128 .f32) :: L), y ∈ p.1.set :=
    fun y => ⟨_, List.mem_cons_self, View.mem_set_unit_zero (S := S1x128) zeros0 inb_S1x128_S1x128_0_0 y⟩
  rw [View.read_writes_eq_canon v f _ hc]
  exact View.canon_cons_unit_zero (S := S1x128) zeros0 inb_S1x128_S1x128_0_0 w L

theorem readAt_big0 (v : View sig .tc .vmem S5000x128 .f32) (f : v.ty.Contents (Elt F)) :
    v.readAt (Elt F) r0_big.toLoadRect f = v.read (Elt F) f := readAt_unit_zero0 v zeros0 _ f
theorem readAt_mat0 (v : View sig .tc .vmem S128x128 .f32) (f : v.ty.Contents (Elt F)) :
    v.readAt (Elt F) r0_mat.toLoadRect f = v.read (Elt F) f := readAt_unit_zero0 v zeros0 _ f
theorem readAt_row0 (v : View sig .tc .vmem S1x128 .f32) (f : v.ty.Contents (Elt F)) :
    v.readAt (Elt F) r0_row.toLoadRect f = v.read (Elt F) f := readAt_unit_zero0 v zeros0 _ f

set_option maxHeartbeats 1000000 in
/-- The statistics kernel on any whole memrefs: the inputs stay, the result block is out0_5 of them, the two running rows restart at the first point and go on otherwise, and the last point writes them out. -/
theorem sound_kernel0 (c : Dev nD) (E : Set ℕ) (i : grid0.Coords) (hc : cond0_0 i → ¬cond0_1 i)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S2x128 .f32) (harg7 : arg7.IsWhole) (arg8 : Memref sig .tc .vmem S1x128 .f32) (harg8 : arg8.IsWhole)
    (arg9 : Memref sig .tc .vmem S1x128 .f32) (harg9 : arg9.IsWhole)
    (x0 x1 : Vec F S5000x128 .f32) (x2 x3 : Vec F S128x128 .f32) (x4 : Vec F S1x128 .f32) (d7 : Vec F S2x128 .f32) (s q : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare d7
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out0_5 x0 x1 x2 x3 x4)
            ∗ owns (c : Thread nD τ) arg7 fullShare (if cond0_1 i then out0_6 (sum0 x0 x1 x2 x3 x4 s) (sq0 x0 x1 x2 x3 x4 q) else d7)
            ∗ owns (c : Thread nD τ) arg8 fullShare (sum0 x0 x1 x2 x3 x4 (if cond0_0 i then k0_pay2 else s))
            ∗ owns (c : Thread nD τ) arg9 fullShare (sq0 x0 x1 x2 x3 x4 (if cond0_0 i then k0_pay3 else q))) -∗ K ⟨⟩))
      ⊢ wp frame (wpE (defs₀ (F := F)) Variants.none c none) E
          (cc0__combine_relu_stats_kernel i arg1 harg1 arg2 harg2 arg3 harg3 arg4 harg4 arg5 harg5 arg6 harg6 arg7 harg7 arg8 harg8 arg9 harg9) K := by
  simp only [cc0__combine_relu_stats_kernel_eq_skeleton, k0_part1_eq_skeleton]; unfold cc0__combine_relu_stats_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, ⟨%f8, %hf8, H8⟩, ⟨%f9, %hf9, H9⟩, Hk⟩
  subst hf0 hf1 hf2 hf3 hf4 hf7 hf8 hf9
  by_cases hc0 : cond0_0 i
  · have hc1 := hc hc0
    rewrite [if_pos hc0, if_pos hc0, if_neg hc1]
    sl_exec (disch := first | exact hc0 | exact hc1)
    sl_step
    iapply Hk
    isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    isplitl [H5]; · iexists _; iframe H5; ipureintro; exact View.read_writes_eq_canon _ _ _ (cover0_5 _)
    isplitl [H7]; · iexists f7; iframe H7; ipureintro; rfl
    isplitl [H8]
    · iexists _; iframe H8; ipureintro
      sl_unfold_run_names
      rw [read_row0]; unfold sum0
      rw [View.readCov_cons_toLoadRect, readAt_big0, readAt_big0, readAt_mat0, readAt_mat0, readAt_row0]
    iexists _; iframe H9; ipureintro
    sl_unfold_run_names
    rw [read_row0]; unfold sq0
    rw [View.readCov_cons_toLoadRect, readAt_big0, readAt_big0, readAt_mat0, readAt_mat0, readAt_row0]
  rewrite [if_neg hc0, if_neg hc0]
  by_cases hc1 : cond0_1 i
  · rewrite [if_pos hc1]
    sl_exec (disch := first | exact hc0 | exact hc1)
    sl_step
    iapply Hk
    isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    isplitl [H5]; · iexists _; iframe H5; ipureintro; exact View.read_writes_eq_canon _ _ _ (cover0_5 _)
    isplitl [H7]
    · iexists _; iframe H7; ipureintro
      sl_unfold_run_names
      rw [View.read_writes_eq_canon _ _ _ (cover0_6 _ _)]
      unfold out0_6 sum0 sq0
      rw [View.readCov_cons_toLoadRect, View.readCov_cons_toLoadRect, readAt_big0, readAt_big0, readAt_mat0, readAt_mat0, readAt_row0, readAt_row0, readAt_row0]
    isplitl [H8]
    · iexists _; iframe H8; ipureintro
      sl_unfold_run_names
      rw [read_row0]; unfold sum0
      rw [readAt_big0, readAt_big0, readAt_mat0, readAt_mat0, readAt_row0, readAt_row0]
    iexists _; iframe H9; ipureintro
    sl_unfold_run_names
    rw [read_row0]; unfold sq0
    rw [readAt_big0, readAt_big0, readAt_mat0, readAt_mat0, readAt_row0, readAt_row0]
  rewrite [if_neg hc1]
  sl_exec (disch := first | exact hc0 | exact hc1)
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists _; iframe H5; ipureintro; exact View.read_writes_eq_canon _ _ _ (cover0_5 _)
  isplitl [H7]; · iexists f7; iframe H7; ipureintro; rfl
  isplitl [H8]
  · iexists _; iframe H8; ipureintro
    sl_unfold_run_names
    rw [read_row0]; unfold sum0
    rw [readAt_big0, readAt_big0, readAt_mat0, readAt_mat0, readAt_row0, readAt_row0]
  iexists _; iframe H9; ipureintro
  sl_unfold_run_names
  rw [read_row0]; unfold sq0
  rw [readAt_big0, readAt_big0, readAt_mat0, readAt_mat0, readAt_row0, readAt_row0]

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def accAt0 (c : Dev nD) : (n : ℕ) → n < cfg0.N → Vec F S1x128 .f32 × Vec F S1x128 .f32
  | 0, hn => (sum0 (iblk0 V c 0 ⟨0, hn⟩) (iblk0 V c 1 ⟨0, hn⟩) (iblk0 V c 2 ⟨0, hn⟩) (iblk0 V c 3 ⟨0, hn⟩) (iblk0 V c 4 ⟨0, hn⟩) k0_pay2, sq0 (iblk0 V c 0 ⟨0, hn⟩) (iblk0 V c 1 ⟨0, hn⟩) (iblk0 V c 2 ⟨0, hn⟩) (iblk0 V c 3 ⟨0, hn⟩) (iblk0 V c 4 ⟨0, hn⟩) k0_pay3)
  | n + 1, hn => (sum0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1,
      sq0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).2)

theorem accAt0_zero (c : Dev nD) (hn : 0 < cfg0.N) :
    accAt0 V c 0 hn = (sum0 (iblk0 V c 0 ⟨0, hn⟩) (iblk0 V c 1 ⟨0, hn⟩) (iblk0 V c 2 ⟨0, hn⟩) (iblk0 V c 3 ⟨0, hn⟩) (iblk0 V c 4 ⟨0, hn⟩) k0_pay2, sq0 (iblk0 V c 0 ⟨0, hn⟩) (iblk0 V c 1 ⟨0, hn⟩) (iblk0 V c 2 ⟨0, hn⟩) (iblk0 V c 3 ⟨0, hn⟩) (iblk0 V c 4 ⟨0, hn⟩) k0_pay3) := rfl

theorem accAt0_succ (c : Dev nD) (n : ℕ) (hn : n + 1 < cfg0.N) :
    accAt0 V c (n + 1) hn = (sum0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 V c n (Nat.lt_of_succ_lt hn)).1,
      sq0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 V c n (Nat.lt_of_succ_lt hn)).2) := rfl

theorem accAt0_first (c : Dev nD) (t : Fin cfg0.N) (hz : t.val = 0) :
    accAt0 V c t.val t.isLt = (sum0 (iblk0 V c 0 t) (iblk0 V c 1 t) (iblk0 V c 2 t) (iblk0 V c 3 t) (iblk0 V c 4 t) k0_pay2, sq0 (iblk0 V c 0 t) (iblk0 V c 1 t) (iblk0 V c 2 t) (iblk0 V c 3 t) (iblk0 V c 4 t) k0_pay3) := by
  obtain ⟨n, hn⟩ := t
  cases n with
  | zero => rfl
  | succ n => exact absurd hz (Nat.succ_ne_zero n)

theorem accAt0_pos (c : Dev nD) (t : Fin cfg0.N) (hz : t.val ≠ 0) :
    accAt0 V c t.val t.isLt = (sum0 (iblk0 V c 0 t) (iblk0 V c 1 t) (iblk0 V c 2 t) (iblk0 V c 3 t) (iblk0 V c 4 t) (accAt0 V c (t.val - 1) (Nat.lt_of_le_of_lt (Nat.sub_le _ _) t.isLt)).1,
      sq0 (iblk0 V c 0 t) (iblk0 V c 1 t) (iblk0 V c 2 t) (iblk0 V c 3 t) (iblk0 V c 4 t) (accAt0 V c (t.val - 1) (Nat.lt_of_le_of_lt (Nat.sub_le _ _) t.isLt)).2) := by
  obtain ⟨n, hn⟩ := t
  cases n with
  | zero => exact absurd rfl hz
  | succ n => rfl

abbrev scM0_0 : Memref sig .tc .vmem S1x128 .f32 := Memref.whole cc0_scratch0
abbrev scM0_1 : Memref sig .tc .vmem S1x128 .f32 := Memref.whole cc0_scratch1

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

def PhiAcc0 (c : Dev nD) (a : Vec F S1x128 .f32 × Vec F S1x128 .f32) : sProp 𝕄 :=
  iprop(iprop(iprop(owns (c : Thread nD τ) scM0_0 fullShare a.1 ∗ owns (c : Thread nD τ) scM0_1 fullShare a.2)
      ∗ Pipeline.scopedRestBut (Ix := Unit) (Name := ℕ) (U := UR sig nD τ) (Lvl := ℕ) (Val := Elt F) spec0 c [cc0_scratch0, cc0_scratch1])
      ∗ (∃ r, prngReg c r))

/-- The region's invariant before point n: the scratch rows hold the running sums of the points before it. -/
def PhiS0 (c : Dev nD) : (n : ℕ) → n ≤ cfg0.N → sProp 𝕄
  | 0, _ => Pipeline.ΦA spec0 c
  | n + 1, hn => PhiAcc0 c (accAt0 V c n hn)

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) : PhiS0 V c n h = PhiAcc0 c (accAt0 V c (n - 1) (by omega)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (accAt0 V c t.val t.isLt).1 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) :
    (dat0 V c).after 6 t = out0_6 (accAt0 V c t.val t.isLt).1 (accAt0 V c t.val t.isLt).2 := by dsimp only [dat0]

theorem lt19_0 : 19 < cfg0.N := by rw [show cfg0.N = 20 from N_0]; omega

theorem after0_6_last (c : Dev nD) (t : Fin cfg0.N) (h : t.val = 19) :
    (dat0 V c).after 6 t = out0_6 (accAt0 V c 19 lt19_0).1 (accAt0 V c 19 lt19_0).2 := by
  rw [after0_6]
  obtain ⟨n, hn⟩ := t
  dsimp only at h
  subst h
  rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

theorem leaves0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiAcc0 c (accAt0 V c t.val t.isLt) from rfl]; unfold PhiAcc0
  rw [leaves0 V c 0 t (liveAt0 0 (by decide) t), leaves0 V c 1 t (liveAt0 1 (by decide) t), leaves0 V c 2 t (liveAt0 2 (by decide) t),
    leaves0 V c 3 t (liveAt0 3 (by decide) t), leaves0 V c 4 t (liveAt0 4 (by decide) t), leaves0 V c 5 t (liveAt0 5 (by decide) t),
    after0_0, after0_1, after0_2, after0_3, after0_4, after0_5]
  have hN : t.val < 20 := lt_of_lt_of_eq t.isLt (show cfg0.N = 20 from N_0)
  by_cases h0 : t.val % 20 = 0
  · have hz : t.val = 0 := by omega
    have c0 : cond0_0 (grid0.coords t) := (hcond0_0 t).mpr h0
    have c1 : ¬cond0_1 (grid0.coords t) := fun h => by have := (hcond0_1 t).mp h; omega
    rw [Dat.leavesExact_idle (dat0 V c) 6 t (idleAt0_6 t c1) (noFlush0_6 t c1)]
    rw [accAt0_first V c t hz]; dsimp only
    rw [PhiS0_castSucc V c t, PhiS0_zero V c _ _ hz, PhiA0_eq]
    iintro ⟨⟨⟨⟨⟨%s, HS0⟩, %q, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0 c Set.univ (grid0.coords t) (fun _ => c1) _ _ _ _ _ _ _ _ _ _ _ _ _ _ _ _ _ _
      (iblk0 V c 0 t) (iblk0 V c 1 t) (iblk0 V c 2 t) (iblk0 V c 3 t) (iblk0 V c 4 t) _ _ _ _)
    iframe
    isplitl [H5]; · iexists _; iexact H5
    rewrite [if_pos c0, if_pos c0, if_neg c1]
    iintro ⟨H0, H1, H2, H3, H4, H5, H6, HS0, HS1⟩
    iframe
    iexists _; iexact H6
  · have hz : t.val ≠ 0 := by omega
    have c0 : ¬cond0_0 (grid0.coords t) := fun h => h0 ((hcond0_0 t).mp h)
    rw [accAt0_pos V c t hz]; dsimp only
    rw [PhiS0_castSucc V c t, PhiS0_pos V c _ _ hz]; unfold PhiAcc0
    by_cases h1 : t.val % 20 = 19
    · have c1 : cond0_1 (grid0.coords t) := (hcond0_1 t).mpr h1
      rw [leaves0 V c 6 t (liveAt0_6 t c1), after0_6]
      rw [accAt0_pos V c t hz]; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0 c Set.univ (grid0.coords t) (fun a => (c0 a).elim) _ _ _ _ _ _ _ _ _ _ _ _ _ _ _ _ _ _
      (iblk0 V c 0 t) (iblk0 V c 1 t) (iblk0 V c 2 t) (iblk0 V c 3 t) (iblk0 V c 4 t) _ _ _ _)
      iframe
      isplitl [H5]; · iexists _; iexact H5
      rewrite [if_neg c0, if_neg c0, if_pos c1]
      iintro ⟨H0, H1, H2, H3, H4, H5, H6, HS0, HS1⟩
      iframe
    · have c1 : ¬cond0_1 (grid0.coords t) := fun h => h1 ((hcond0_1 t).mp h)
      rw [Dat.leavesExact_idle (dat0 V c) 6 t (idleAt0_6 t c1) (noFlush0_6 t c1)]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0 c Set.univ (grid0.coords t) (fun a => (c0 a).elim) _ _ _ _ _ _ _ _ _ _ _ _ _ _ _ _ _ _
      (iblk0 V c 0 t) (iblk0 V c 1 t) (iblk0 V c 2 t) (iblk0 V c 3 t) (iblk0 V c 4 t) _ _ _ _)
      iframe
      isplitl [H5]; · iexists _; iexact H5
      rewrite [if_neg c0, if_neg c0, if_neg c1]
      iintro ⟨H0, H1, H2, H3, H4, H5, H6, HS0, HS1⟩
      iframe
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]; unfold PhiAcc0
  iintro ⟨⟨⟨HS0, HS1⟩, Hrest⟩, Hg⟩
  iframe Hrest Hg
  isplitl [HS0]; · iexists _; iexact HS0
  iexists _; iexact HS1

theorem hout0 (c : Dev nD) : (dat0 V c).Φ (Fin.last cfg0.N) ⊢ Pipeline.ΦA spec0 c :=
  Phi_out0 V c _ (by rw [Fin.val_last]; have : cfg0.N = 20 := N_0; omega)

end Cert.Kernel.Reg

end
-- ==== Proof.K.Stats2.lean ====
import proofs.«418208_j66958540145299_1_alg».proof.Proof.K.Stats0

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop :=
  (Scalar.cmpi .ne (Scalar.extui (Scalar.cmpi .eq (BitVec.ofNat 32 (i 0).val) 0#32)) 0#32) = 1#1

theorem hcond2_0 : ∀ t : Fin cfg2.N, cond2_0 (grid2.coords t) ↔ t.val % 20 = 0 :=
  (by decide +kernel : ∀ t : Fin grid2.N, cond2_0 (grid2.coords t) ↔ t.val % 20 = 0)

abbrev cond2_1 (i : grid2.Coords) : Prop := k2_cond2 i = 1#1

theorem hcond2_1 : ∀ t : Fin cfg2.N, cond2_1 (grid2.coords t) ↔ t.val % 20 = 19 :=
  (by decide +kernel : ∀ t : Fin grid2.N, cond2_1 (grid2.coords t) ↔ t.val % 20 = 19)

theorem liveAt2 : ∀ w : Fin cfg2.W, w.val < 6 → ∀ t : Fin cfg2.N, cfg2.idle w (grid2.coords t) = false := by decide +kernel

theorem idleAt2_6 : ∀ t : Fin cfg2.N, ¬cond2_1 (grid2.coords t) → cfg2.idle 6 (grid2.coords t) = true := by decide +kernel

theorem noFlush2_6 : ∀ t : Fin cfg2.N, ¬cond2_1 (grid2.coords t) → (cfg2.win 6).flush t = false := by decide +kernel

theorem liveAt2_6 : ∀ t : Fin cfg2.N, cond2_1 (grid2.coords t) → cfg2.idle 6 (grid2.coords t) = false := by decide +kernel

def sum2 (x0 x1 : Vec F S5000x128 .f32) (x2 x3 : Vec F S128x128 .f32) (x4 : Vec F S1x128 .f32) (s : Vec F S1x128 .f32) : Vec F S1x128 .f32 :=
  k2_pay5 x0 x1 x2 x3 x4 s

def sq2 (x0 x1 : Vec F S5000x128 .f32) (x2 x3 : Vec F S128x128 .f32) (x4 : Vec F S1x128 .f32) (q : Vec F S1x128 .f32) : Vec F S1x128 .f32 :=
  k2_pay1 (k2_pay4 x0 x1 x2 x3 x4) q

def out2_5 (x0 x1 : Vec F S5000x128 .f32) (x2 x3 : Vec F S128x128 .f32) (x4 : Vec F S1x128 .f32) : Vec F S5000x128 .f32 :=
  View.canon [⟨r0_big, k2_pay4 (View.ld x0 r0_big) (View.ld x1 r0_big) (View.ld x2 r0_mat) (View.ld x3 r0_mat) (View.ld x4 r0_row)⟩]

def out2_6 (s q : Vec F S1x128 .f32) : Vec F S2x128 .f32 :=
  View.canon [⟨r0_st1, q⟩, ⟨r0_st0, s⟩]

theorem out2_5_eq (x0 x1 : Vec F S5000x128 .f32) (x2 x3 : Vec F S128x128 .f32) (x4 : Vec F S1x128 .f32) :
    out2_5 x0 x1 x2 x3 x4 = k2_pay4 x0 x1 x2 x3 x4 := by
  unfold out2_5
  rw [View.canon_unit_zero (S := S5000x128) zeros0]
  rw [View.ld_unit_zero (S := S5000x128) zeros0, View.ld_unit_zero (S := S5000x128) zeros0, View.ld_unit_zero (S := S128x128) zeros0,
    View.ld_unit_zero (S := S128x128) zeros0, View.ld_unit_zero (S := S1x128) zeros0]

set_option maxHeartbeats 1000000 in
/-- The statistics kernel on any whole memrefs: the inputs stay, the result block is out2_5 of them, the two running rows restart at the first point and go on otherwise, and the last point writes them out. -/
theorem sound_kernel2 (c : Dev nD) (E : Set ℕ) (i : grid2.Coords) (hc : cond2_0 i → ¬cond2_1 i)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S2x128 .f32) (harg7 : arg7.IsWhole) (arg8 : Memref sig .tc .vmem S1x128 .f32) (harg8 : arg8.IsWhole)
    (arg9 : Memref sig .tc .vmem S1x128 .f32) (harg9 : arg9.IsWhole)
    (x0 x1 : Vec F S5000x128 .f32) (x2 x3 : Vec F S128x128 .f32) (x4 : Vec F S1x128 .f32) (d7 : Vec F S2x128 .f32) (s q : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare d7
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out2_5 x0 x1 x2 x3 x4)
            ∗ owns (c : Thread nD τ) arg7 fullShare (if cond2_1 i then out2_6 (sum2 x0 x1 x2 x3 x4 s) (sq2 x0 x1 x2 x3 x4 q) else d7)
            ∗ owns (c : Thread nD τ) arg8 fullShare (sum2 x0 x1 x2 x3 x4 (if cond2_0 i then k2_pay2 else s))
            ∗ owns (c : Thread nD τ) arg9 fullShare (sq2 x0 x1 x2 x3 x4 (if cond2_0 i then k2_pay3 else q))) -∗ K ⟨⟩))
      ⊢ wp frame (wpE (defs₀ (F := F)) Variants.none c none) E
          (cc2__combine_relu_stats_kernel i arg1 harg1 arg2 harg2 arg3 harg3 arg4 harg4 arg5 harg5 arg6 harg6 arg7 harg7 arg8 harg8 arg9 harg9) K := by
  simp only [cc2__combine_relu_stats_kernel_eq_skeleton, k2_part1_eq_skeleton]; unfold cc2__combine_relu_stats_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, ⟨%f8, %hf8, H8⟩, ⟨%f9, %hf9, H9⟩, Hk⟩
  subst hf0 hf1 hf2 hf3 hf4 hf7 hf8 hf9
  by_cases hc0 : cond2_0 i
  · have hc1 := hc hc0
    rewrite [if_pos hc0, if_pos hc0, if_neg hc1]
    sl_exec (disch := first | exact hc0 | exact hc1)
    sl_step
    iapply Hk
    isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    isplitl [H5]; · iexists _; iframe H5; ipureintro; exact View.read_writes_eq_canon _ _ _ (cover0_5 _)
    isplitl [H7]; · iexists f7; iframe H7; ipureintro; rfl
    isplitl [H8]
    · iexists _; iframe H8; ipureintro
      sl_unfold_run_names
      rw [read_row0]; unfold sum2
      rw [View.readCov_cons_toLoadRect, readAt_big0, readAt_big0, readAt_mat0, readAt_mat0, readAt_row0]
    iexists _; iframe H9; ipureintro
    sl_unfold_run_names
    rw [read_row0]; unfold sq2
    rw [View.readCov_cons_toLoadRect, readAt_big0, readAt_big0, readAt_mat0, readAt_mat0, readAt_row0]
  rewrite [if_neg hc0, if_neg hc0]
  by_cases hc1 : cond2_1 i
  · rewrite [if_pos hc1]
    sl_exec (disch := first | exact hc0 | exact hc1)
    sl_step
    iapply Hk
    isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    isplitl [H5]; · iexists _; iframe H5; ipureintro; exact View.read_writes_eq_canon _ _ _ (cover0_5 _)
    isplitl [H7]
    · iexists _; iframe H7; ipureintro
      sl_unfold_run_names
      rw [View.read_writes_eq_canon _ _ _ (cover0_6 _ _)]
      unfold out2_6 sum2 sq2
      rw [View.readCov_cons_toLoadRect, View.readCov_cons_toLoadRect, readAt_big0, readAt_big0, readAt_mat0, readAt_mat0, readAt_row0, readAt_row0, readAt_row0]
    isplitl [H8]
    · iexists _; iframe H8; ipureintro
      sl_unfold_run_names
      rw [read_row0]; unfold sum2
      rw [readAt_big0, readAt_big0, readAt_mat0, readAt_mat0, readAt_row0, readAt_row0]
    iexists _; iframe H9; ipureintro
    sl_unfold_run_names
    rw [read_row0]; unfold sq2
    rw [readAt_big0, readAt_big0, readAt_mat0, readAt_mat0, readAt_row0, readAt_row0]
  rewrite [if_neg hc1]
  sl_exec (disch := first | exact hc0 | exact hc1)
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists _; iframe H5; ipureintro; exact View.read_writes_eq_canon _ _ _ (cover0_5 _)
  isplitl [H7]; · iexists f7; iframe H7; ipureintro; rfl
  isplitl [H8]
  · iexists _; iframe H8; ipureintro
    sl_unfold_run_names
    rw [read_row0]; unfold sum2
    rw [readAt_big0, readAt_big0, readAt_mat0, readAt_mat0, readAt_row0, readAt_row0]
  iexists _; iframe H9; ipureintro
  sl_unfold_run_names
  rw [read_row0]; unfold sq2
  rw [readAt_big0, readAt_big0, readAt_mat0, readAt_mat0, readAt_row0, readAt_row0]

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accAt2 (c : Dev nD) : (n : ℕ) → n < cfg2.N → Vec F S1x128 .f32 × Vec F S1x128 .f32
  | 0, hn => (sum2 (iblk2 V c 0 ⟨0, hn⟩) (iblk2 V c 1 ⟨0, hn⟩) (iblk2 V c 2 ⟨0, hn⟩) (iblk2 V c 3 ⟨0, hn⟩) (iblk2 V c 4 ⟨0, hn⟩) k2_pay2, sq2 (iblk2 V c 0 ⟨0, hn⟩) (iblk2 V c 1 ⟨0, hn⟩) (iblk2 V c 2 ⟨0, hn⟩) (iblk2 V c 3 ⟨0, hn⟩) (iblk2 V c 4 ⟨0, hn⟩) k2_pay3)
  | n + 1, hn => (sum2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).1,
      sq2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).2)

theorem accAt2_zero (c : Dev nD) (hn : 0 < cfg2.N) :
    accAt2 V c 0 hn = (sum2 (iblk2 V c 0 ⟨0, hn⟩) (iblk2 V c 1 ⟨0, hn⟩) (iblk2 V c 2 ⟨0, hn⟩) (iblk2 V c 3 ⟨0, hn⟩) (iblk2 V c 4 ⟨0, hn⟩) k2_pay2, sq2 (iblk2 V c 0 ⟨0, hn⟩) (iblk2 V c 1 ⟨0, hn⟩) (iblk2 V c 2 ⟨0, hn⟩) (iblk2 V c 3 ⟨0, hn⟩) (iblk2 V c 4 ⟨0, hn⟩) k2_pay3) := rfl

theorem accAt2_succ (c : Dev nD) (n : ℕ) (hn : n + 1 < cfg2.N) :
    accAt2 V c (n + 1) hn = (sum2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 V c n (Nat.lt_of_succ_lt hn)).1,
      sq2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 V c n (Nat.lt_of_succ_lt hn)).2) := rfl

theorem accAt2_first (c : Dev nD) (t : Fin cfg2.N) (hz : t.val = 0) :
    accAt2 V c t.val t.isLt = (sum2 (iblk2 V c 0 t) (iblk2 V c 1 t) (iblk2 V c 2 t) (iblk2 V c 3 t) (iblk2 V c 4 t) k2_pay2, sq2 (iblk2 V c 0 t) (iblk2 V c 1 t) (iblk2 V c 2 t) (iblk2 V c 3 t) (iblk2 V c 4 t) k2_pay3) := by
  obtain ⟨n, hn⟩ := t
  cases n with
  | zero => rfl
  | succ n => exact absurd hz (Nat.succ_ne_zero n)

theorem accAt2_pos (c : Dev nD) (t : Fin cfg2.N) (hz : t.val ≠ 0) :
    accAt2 V c t.val t.isLt = (sum2 (iblk2 V c 0 t) (iblk2 V c 1 t) (iblk2 V c 2 t) (iblk2 V c 3 t) (iblk2 V c 4 t) (accAt2 V c (t.val - 1) (Nat.lt_of_le_of_lt (Nat.sub_le _ _) t.isLt)).1,
      sq2 (iblk2 V c 0 t) (iblk2 V c 1 t) (iblk2 V c 2 t) (iblk2 V c 3 t) (iblk2 V c 4 t) (accAt2 V c (t.val - 1) (Nat.lt_of_le_of_lt (Nat.sub_le _ _) t.isLt)).2) := by
  obtain ⟨n, hn⟩ := t
  cases n with
  | zero => exact absurd rfl hz
  | succ n => rfl

abbrev scM2_0 : Memref sig .tc .vmem S1x128 .f32 := Memref.whole cc2_scratch0
abbrev scM2_1 : Memref sig .tc .vmem S1x128 .f32 := Memref.whole cc2_scratch1

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

def PhiAcc2 (c : Dev nD) (a : Vec F S1x128 .f32 × Vec F S1x128 .f32) : sProp 𝕄 :=
  iprop(iprop(iprop(owns (c : Thread nD τ) scM2_0 fullShare a.1 ∗ owns (c : Thread nD τ) scM2_1 fullShare a.2)
      ∗ Pipeline.scopedRestBut (Ix := Unit) (Name := ℕ) (U := UR sig nD τ) (Lvl := ℕ) (Val := Elt F) spec2 c [cc2_scratch0, cc2_scratch1])
      ∗ (∃ r, prngReg c r))

/-- The region's invariant before point n: the scratch rows hold the running sums of the points before it. -/
def PhiS2 (c : Dev nD) : (n : ℕ) → n ≤ cfg2.N → sProp 𝕄
  | 0, _ => Pipeline.ΦA spec2 c
  | n + 1, hn => PhiAcc2 c (accAt2 V c n hn)

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) : PhiS2 V c n h = PhiAcc2 c (accAt2 V c (n - 1) (by omega)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (accAt2 V c t.val t.isLt).1 (accAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) :
    (dat2 V c).after 6 t = out2_6 (accAt2 V c t.val t.isLt).1 (accAt2 V c t.val t.isLt).2 := by dsimp only [dat2]

theorem lt19_2 : 19 < cfg2.N := by rw [show cfg2.N = 20 from N_2]; omega

theorem after2_6_last (c : Dev nD) (t : Fin cfg2.N) (h : t.val = 19) :
    (dat2 V c).after 6 t = out2_6 (accAt2 V c 19 lt19_2).1 (accAt2 V c 19 lt19_2).2 := by
  rw [after2_6]
  obtain ⟨n, hn⟩ := t
  dsimp only at h
  subst h
  rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem leaves2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiAcc2 c (accAt2 V c t.val t.isLt) from rfl]; unfold PhiAcc2
  rw [leaves2 V c 0 t (liveAt2 0 (by decide) t), leaves2 V c 1 t (liveAt2 1 (by decide) t), leaves2 V c 2 t (liveAt2 2 (by decide) t),
    leaves2 V c 3 t (liveAt2 3 (by decide) t), leaves2 V c 4 t (liveAt2 4 (by decide) t), leaves2 V c 5 t (liveAt2 5 (by decide) t),
    after2_0, after2_1, after2_2, after2_3, after2_4, after2_5]
  have hN : t.val < 20 := lt_of_lt_of_eq t.isLt (show cfg2.N = 20 from N_2)
  by_cases h0 : t.val % 20 = 0
  · have hz : t.val = 0 := by omega
    have c0 : cond2_0 (grid2.coords t) := (hcond2_0 t).mpr h0
    have c1 : ¬cond2_1 (grid2.coords t) := fun h => by have := (hcond2_1 t).mp h; omega
    rw [Dat.leavesExact_idle (dat2 V c) 6 t (idleAt2_6 t c1) (noFlush2_6 t c1)]
    rw [accAt2_first V c t hz]; dsimp only
    rw [PhiS2_castSucc V c t, PhiS2_zero V c _ _ hz, PhiA2_eq]
    iintro ⟨⟨⟨⟨⟨%s, HS0⟩, %q, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2 c Set.univ (grid2.coords t) (fun _ => c1) _ _ _ _ _ _ _ _ _ _ _ _ _ _ _ _ _ _
      (iblk2 V c 0 t) (iblk2 V c 1 t) (iblk2 V c 2 t) (iblk2 V c 3 t) (iblk2 V c 4 t) _ _ _ _)
    iframe
    isplitl [H5]; · iexists _; iexact H5
    rewrite [if_pos c0, if_pos c0, if_neg c1]
    iintro ⟨H0, H1, H2, H3, H4, H5, H6, HS0, HS1⟩
    iframe
    iexists _; iexact H6
  · have hz : t.val ≠ 0 := by omega
    have c0 : ¬cond2_0 (grid2.coords t) := fun h => h0 ((hcond2_0 t).mp h)
    rw [accAt2_pos V c t hz]; dsimp only
    rw [PhiS2_castSucc V c t, PhiS2_pos V c _ _ hz]; unfold PhiAcc2
    by_cases h1 : t.val % 20 = 19
    · have c1 : cond2_1 (grid2.coords t) := (hcond2_1 t).mpr h1
      rw [leaves2 V c 6 t (liveAt2_6 t c1), after2_6]
      rw [accAt2_pos V c t hz]; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2 c Set.univ (grid2.coords t) (fun a => (c0 a).elim) _ _ _ _ _ _ _ _ _ _ _ _ _ _ _ _ _ _
      (iblk2 V c 0 t) (iblk2 V c 1 t) (iblk2 V c 2 t) (iblk2 V c 3 t) (iblk2 V c 4 t) _ _ _ _)
      iframe
      isplitl [H5]; · iexists _; iexact H5
      rewrite [if_neg c0, if_neg c0, if_pos c1]
      iintro ⟨H0, H1, H2, H3, H4, H5, H6, HS0, HS1⟩
      iframe
    · have c1 : ¬cond2_1 (grid2.coords t) := fun h => h1 ((hcond2_1 t).mp h)
      rw [Dat.leavesExact_idle (dat2 V c) 6 t (idleAt2_6 t c1) (noFlush2_6 t c1)]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2 c Set.univ (grid2.coords t) (fun a => (c0 a).elim) _ _ _ _ _ _ _ _ _ _ _ _ _ _ _ _ _ _
      (iblk2 V c 0 t) (iblk2 V c 1 t) (iblk2 V c 2 t) (iblk2 V c 3 t) (iblk2 V c 4 t) _ _ _ _)
      iframe
      isplitl [H5]; · iexists _; iexact H5
      rewrite [if_neg c0, if_neg c0, if_neg c1]
      iintro ⟨H0, H1, H2, H3, H4, H5, H6, HS0, HS1⟩
      iframe
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]; unfold PhiAcc2
  iintro ⟨⟨⟨HS0, HS1⟩, Hrest⟩, Hg⟩
  iframe Hrest Hg
  isplitl [HS0]; · iexists _; iexact HS0
  iexists _; iexact HS1

theorem hout2 (c : Dev nD) : (dat2 V c).Φ (Fin.last cfg2.N) ⊢ Pipeline.ΦA spec2 c :=
  Phi_out2 V c _ (by rw [Fin.val_last]; have : cfg2.N = 20 := N_2; omega)

end Cert.Kernel.Reg

end
-- ==== Proof.K.Stats4.lean ====
import proofs.«418208_j66958540145299_1_alg».proof.Proof.K.Stats2

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.cmpi .eq (BitVec.ofNat 32 (i 0).val) 0#32)) 0#32) = 1#1

theorem hcond4_0 : ∀ t : Fin cfg4.N, cond4_0 (grid4.coords t) ↔ t.val % 20 = 0 :=
  (by decide +kernel : ∀ t : Fin grid4.N, cond4_0 (grid4.coords t) ↔ t.val % 20 = 0)

abbrev cond4_1 (i : grid4.Coords) : Prop := k4_cond2 i = 1#1

theorem hcond4_1 : ∀ t : Fin cfg4.N, cond4_1 (grid4.coords t) ↔ t.val % 20 = 19 :=
  (by decide +kernel : ∀ t : Fin grid4.N, cond4_1 (grid4.coords t) ↔ t.val % 20 = 19)

theorem liveAt4 : ∀ w : Fin cfg4.W, w.val < 6 → ∀ t : Fin cfg4.N, cfg4.idle w (grid4.coords t) = false := by decide +kernel

theorem idleAt4_6 : ∀ t : Fin cfg4.N, ¬cond4_1 (grid4.coords t) → cfg4.idle 6 (grid4.coords t) = true := by decide +kernel

theorem noFlush4_6 : ∀ t : Fin cfg4.N, ¬cond4_1 (grid4.coords t) → (cfg4.win 6).flush t = false := by decide +kernel

theorem liveAt4_6 : ∀ t : Fin cfg4.N, cond4_1 (grid4.coords t) → cfg4.idle 6 (grid4.coords t) = false := by decide +kernel

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def accAt4 (c : Dev nD) : (n : ℕ) → n < cfg4.N → Vec F S1x128 .f32 × Vec F S1x128 .f32
  | 0, hn => (sum2 (iblk4 V c 0 ⟨0, hn⟩) (iblk4 V c 1 ⟨0, hn⟩) (iblk4 V c 2 ⟨0, hn⟩) (iblk4 V c 3 ⟨0, hn⟩) (iblk4 V c 4 ⟨0, hn⟩) k2_pay2, sq2 (iblk4 V c 0 ⟨0, hn⟩) (iblk4 V c 1 ⟨0, hn⟩) (iblk4 V c 2 ⟨0, hn⟩) (iblk4 V c 3 ⟨0, hn⟩) (iblk4 V c 4 ⟨0, hn⟩) k2_pay3)
  | n + 1, hn => (sum2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).1,
      sq2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).2)

theorem accAt4_zero (c : Dev nD) (hn : 0 < cfg4.N) :
    accAt4 V c 0 hn = (sum2 (iblk4 V c 0 ⟨0, hn⟩) (iblk4 V c 1 ⟨0, hn⟩) (iblk4 V c 2 ⟨0, hn⟩) (iblk4 V c 3 ⟨0, hn⟩) (iblk4 V c 4 ⟨0, hn⟩) k2_pay2, sq2 (iblk4 V c 0 ⟨0, hn⟩) (iblk4 V c 1 ⟨0, hn⟩) (iblk4 V c 2 ⟨0, hn⟩) (iblk4 V c 3 ⟨0, hn⟩) (iblk4 V c 4 ⟨0, hn⟩) k2_pay3) := rfl

theorem accAt4_succ (c : Dev nD) (n : ℕ) (hn : n + 1 < cfg4.N) :
    accAt4 V c (n + 1) hn = (sum2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 V c n (Nat.lt_of_succ_lt hn)).1,
      sq2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 V c n (Nat.lt_of_succ_lt hn)).2) := rfl

theorem accAt4_first (c : Dev nD) (t : Fin cfg4.N) (hz : t.val = 0) :
    accAt4 V c t.val t.isLt = (sum2 (iblk4 V c 0 t) (iblk4 V c 1 t) (iblk4 V c 2 t) (iblk4 V c 3 t) (iblk4 V c 4 t) k2_pay2, sq2 (iblk4 V c 0 t) (iblk4 V c 1 t) (iblk4 V c 2 t) (iblk4 V c 3 t) (iblk4 V c 4 t) k2_pay3) := by
  obtain ⟨n, hn⟩ := t
  cases n with
  | zero => rfl
  | succ n => exact absurd hz (Nat.succ_ne_zero n)

theorem accAt4_pos (c : Dev nD) (t : Fin cfg4.N) (hz : t.val ≠ 0) :
    accAt4 V c t.val t.isLt = (sum2 (iblk4 V c 0 t) (iblk4 V c 1 t) (iblk4 V c 2 t) (iblk4 V c 3 t) (iblk4 V c 4 t) (accAt4 V c (t.val - 1) (Nat.lt_of_le_of_lt (Nat.sub_le _ _) t.isLt)).1,
      sq2 (iblk4 V c 0 t) (iblk4 V c 1 t) (iblk4 V c 2 t) (iblk4 V c 3 t) (iblk4 V c 4 t) (accAt4 V c (t.val - 1) (Nat.lt_of_le_of_lt (Nat.sub_le _ _) t.isLt)).2) := by
  obtain ⟨n, hn⟩ := t
  cases n with
  | zero => exact absurd rfl hz
  | succ n => rfl

abbrev scM4_0 : Memref sig .tc .vmem S1x128 .f32 := Memref.whole cc4_scratch0
abbrev scM4_1 : Memref sig .tc .vmem S1x128 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

def PhiAcc4 (c : Dev nD) (a : Vec F S1x128 .f32 × Vec F S1x128 .f32) : sProp 𝕄 :=
  iprop(iprop(iprop(owns (c : Thread nD τ) scM4_0 fullShare a.1 ∗ owns (c : Thread nD τ) scM4_1 fullShare a.2)
      ∗ Pipeline.scopedRestBut (Ix := Unit) (Name := ℕ) (U := UR sig nD τ) (Lvl := ℕ) (Val := Elt F) spec4 c [cc4_scratch0, cc4_scratch1])
      ∗ (∃ r, prngReg c r))

/-- The region's invariant before point n: the scratch rows hold the running sums of the points before it. -/
def PhiS4 (c : Dev nD) : (n : ℕ) → n ≤ cfg4.N → sProp 𝕄
  | 0, _ => Pipeline.ΦA spec4 c
  | n + 1, hn => PhiAcc4 c (accAt4 V c n hn)

theorem PhiS4_zero (c : Dev nD) (n : ℕ) (h : n ≤ cfg4.N) (hz : n = 0) : PhiS4 V c n h = Pipeline.ΦA spec4 c := by
  subst hz; rfl

theorem PhiS4_pos (c : Dev nD) (n : ℕ) (h : n ≤ cfg4.N) (hz : n ≠ 0) : PhiS4 V c n h = PhiAcc4 c (accAt4 V c (n - 1) (by omega)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out2_5 (iblk4 V c 0 t) (iblk4 V c 1 t) (iblk4 V c 2 t) (iblk4 V c 3 t) (iblk4 V c 4 t)
    | ⟨6, _⟩ => out2_6 (accAt4 V c t.val t.isLt).1 (accAt4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out2_5 (iblk4 V c 0 t) (iblk4 V c 1 t) (iblk4 V c 2 t) (iblk4 V c 3 t) (iblk4 V c 4 t) := by dsimp only [dat4]
theorem after4_6 (c : Dev nD) (t : Fin cfg4.N) :
    (dat4 V c).after 6 t = out2_6 (accAt4 V c t.val t.isLt).1 (accAt4 V c t.val t.isLt).2 := by dsimp only [dat4]

theorem lt19_4 : 19 < cfg4.N := by rw [show cfg4.N = 20 from N_4]; omega

theorem after4_6_last (c : Dev nD) (t : Fin cfg4.N) (h : t.val = 19) :
    (dat4 V c).after 6 t = out2_6 (accAt4 V c 19 lt19_4).1 (accAt4 V c 19 lt19_4).2 := by
  rw [after4_6]
  obtain ⟨n, hn⟩ := t
  dsimp only at h
  subst h
  rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d

theorem kernel4_eq : @cc4__combine_relu_stats_kernel F _ = @cc2__combine_relu_stats_kernel F _ := rfl

theorem leaves4 (c : Dev nD) (w : Fin cfg4.W) (t : Fin cfg4.N) (h : cfg4.idle w (grid4.coords t) = false) :
    (dat4 V c).leavesExact w t = owns (c : Thread nD τ) ((cfg4.win w).stage (cfg4.slots t w)) fullShare ((dat4 V c).after w t) := by
  unfold Dat.leavesExact; rw [h]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [kernel4_eq]
  simp only [before4_0, before4_1, before4_2, before4_3, before4_4]
  rw [show (dat4 V c).owesAt () t.succ = (dat4 V c).owesAt () t.castSucc from rfl]
  rw [show (dat4 V c).Φ t.succ = PhiAcc4 c (accAt4 V c t.val t.isLt) from rfl]; unfold PhiAcc4
  rw [leaves4 V c 0 t (liveAt4 0 (by decide) t), leaves4 V c 1 t (liveAt4 1 (by decide) t), leaves4 V c 2 t (liveAt4 2 (by decide) t),
    leaves4 V c 3 t (liveAt4 3 (by decide) t), leaves4 V c 4 t (liveAt4 4 (by decide) t), leaves4 V c 5 t (liveAt4 5 (by decide) t),
    after4_0, after4_1, after4_2, after4_3, after4_4, after4_5]
  have hN : t.val < 20 := lt_of_lt_of_eq t.isLt (show cfg4.N = 20 from N_4)
  by_cases h0 : t.val % 20 = 0
  · have hz : t.val = 0 := by omega
    have c0 : cond2_0 (grid4.coords t) := (hcond4_0 t).mpr h0
    have c1 : ¬cond2_1 (grid4.coords t) := fun h => by have := (hcond4_1 t).mp h; omega
    rw [Dat.leavesExact_idle (dat4 V c) 6 t (idleAt4_6 t c1) (noFlush4_6 t c1)]
    rw [accAt4_first V c t hz]; dsimp only
    rw [PhiS4_castSucc V c t, PhiS4_zero V c _ _ hz, PhiA4_eq]
    iintro ⟨⟨⟨⟨⟨%s, HS0⟩, %q, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2 c Set.univ (grid4.coords t) (fun _ => c1) _ _ _ _ _ _ _ _ _ _ _ _ _ _ _ _ _ _
      (iblk4 V c 0 t) (iblk4 V c 1 t) (iblk4 V c 2 t) (iblk4 V c 3 t) (iblk4 V c 4 t) _ _ _ _)
    iframe
    isplitl [H5]; · iexists _; iexact H5
    rewrite [if_pos c0, if_pos c0, if_neg c1]
    iintro ⟨H0, H1, H2, H3, H4, H5, H6, HS0, HS1⟩
    iframe
    iexists _; iexact H6
  · have hz : t.val ≠ 0 := by omega
    have c0 : ¬cond2_0 (grid4.coords t) := fun h => h0 ((hcond4_0 t).mp h)
    rw [accAt4_pos V c t hz]; dsimp only
    rw [PhiS4_castSucc V c t, PhiS4_pos V c _ _ hz]; unfold PhiAcc4
    by_cases h1 : t.val % 20 = 19
    · have c1 : cond2_1 (grid4.coords t) := (hcond4_1 t).mpr h1
      rw [leaves4 V c 6 t (liveAt4_6 t c1), after4_6]
      rw [accAt4_pos V c t hz]; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2 c Set.univ (grid4.coords t) (fun a => (c0 a).elim) _ _ _ _ _ _ _ _ _ _ _ _ _ _ _ _ _ _
      (iblk4 V c 0 t) (iblk4 V c 1 t) (iblk4 V c 2 t) (iblk4 V c 3 t) (iblk4 V c 4 t) _ _ _ _)
      iframe
      isplitl [H5]; · iexists _; iexact H5
      rewrite [if_neg c0, if_neg c0, if_pos c1]
      iintro ⟨H0, H1, H2, H3, H4, H5, H6, HS0, HS1⟩
      iframe
    · have c1 : ¬cond2_1 (grid4.coords t) := fun h => h1 ((hcond4_1 t).mp h)
      rw [Dat.leavesExact_idle (dat4 V c) 6 t (idleAt4_6 t c1) (noFlush4_6 t c1)]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2 c Set.univ (grid4.coords t) (fun a => (c0 a).elim) _ _ _ _ _ _ _ _ _ _ _ _ _ _ _ _ _ _
      (iblk4 V c 0 t) (iblk4 V c 1 t) (iblk4 V c 2 t) (iblk4 V c 3 t) (iblk4 V c 4 t) _ _ _ _)
      iframe
      isplitl [H5]; · iexists _; iexact H5
      rewrite [if_neg c0, if_neg c0, if_neg c1]
      iintro ⟨H0, H1, H2, H3, H4, H5, H6, HS0, HS1⟩
      iframe
      iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]; unfold PhiAcc4
  iintro ⟨⟨⟨HS0, HS1⟩, Hrest⟩, Hg⟩
  iframe Hrest Hg
  isplitl [HS0]; · iexists _; iexact HS0
  iexists _; iexact HS1

theorem hout4 (c : Dev nD) : (dat4 V c).Φ (Fin.last cfg4.N) ⊢ Pipeline.ΦA spec4 c :=
  Phi_out4 V c _ (by rw [Fin.val_last]; have : cfg4.N = 20 := N_4; omega)

end Cert.Kernel.Reg

end
-- ==== Proof.K.Main.lean ====
import proofs.«418208_j66958540145299_1_alg».proof.Proof.K.Affine1
import proofs.«418208_j66958540145299_1_alg».proof.Proof.K.Affine3
import proofs.«418208_j66958540145299_1_alg».proof.Proof.K.Affine5
import proofs.«418208_j66958540145299_1_alg».proof.Proof.K.Sigmoid6
import proofs.«418208_j66958540145299_1_alg».proof.Proof.K.Stats0
import proofs.«418208_j66958540145299_1_alg».proof.Proof.K.Stats2
import proofs.«418208_j66958540145299_1_alg».proof.Proof.K.Stats4
import proofs.«418208_j66958540145299_1_alg».proof.Proof.Gen.Kernel.Regions
import Idealize.ShloMosaic.Lib.Pipeline.RegionsLoop
import Idealize.ShloMosaic.Lib.Pipeline.FrameSuffix
import Idealize.ShloMosaic.Lib.Tactic

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's contents read at the TensorCore's references. -/
abbrev atTc (W : Dev nD → Valuation τ sig (Elt F)) (c : Dev nD) (b : Ref sig .tc) : Buf (Elt F) ((c : Thread nD τ).loc b) := W c b

/-- The contents after a host stretch. -/
abbrev host (ops : List (HloOp τ sig (Elt F))) (W : Dev nD → Valuation τ sig (Elt F)) : Dev nD → Valuation τ sig (Elt F) :=
  fun c => StableHlo.after ops (W c)

/-- What a region entered at W leaves: its arrays at the last contents of its proof data, every other buffer as entered. -/
abbrev leaves {cfg : Cfg sig Λ₀} (W : Dev nD → Valuation τ sig (Elt F)) (d : (c : Dev nD) → Dat τ (Elt F) Unit ℕ (UR sig nD τ) ℕ cfg c) :
    Dev nD → Valuation τ sig (Elt F) :=
  fun c => Pipeline.withArrays cfg.spec c (W c) fun w => (d c).arrAt w cfg.N

theorem leaves_arr {cfg : Cfg sig Λ₀} (hinj : Function.Injective (Pipeline.arrRef cfg.spec)) (W : Dev nD → Valuation τ sig (Elt F))
    (d : (c : Dev nD) → Dat τ (Elt F) Unit ℕ (UR sig nD τ) ℕ cfg c) (c : Dev nD) (w : Fin cfg.W) :
    leaves W d c (Proc.devRef .tc (Pipeline.arrRef cfg.spec w)) = (d c).arrAt w cfg.N :=
  Pipeline.withArrays_arr cfg.spec hinj c _ _ w
theorem leaves_of_ne {cfg : Cfg sig Λ₀} (W : Dev nD → Valuation τ sig (Elt F)) (d : (c : Dev nD) → Dat τ (Elt F) Unit ℕ (UR sig nD τ) ℕ cfg c)
    (c : Dev nD) (b : Ref sig .tc) (hb : ∀ w, Pipeline.arrRef cfg.spec w ≠ b) : leaves W d c (Proc.devRef .tc b) = W c (Proc.devRef .tc b) :=
  Pipeline.withArrays_of_ne cfg.spec c _ _ b hb

/-- The buffers' contents at the 22 boundaries between the items of @main, from the launch memory on. -/
abbrev W0 : Dev nD → Valuation τ sig (Elt F) := fun c b => (s₀ m ρ).mem ((c : Dev nD), b)
abbrev W1 := host hostOps0 (W0 m ρ)
abbrev W2 := host hostOps0_1 (W1 m ρ)
abbrev W3 := host hostOps0_2 (W2 m ρ)
abbrev W4 := host hostOps0_3 (W3 m ρ)
abbrev W5 := host hostOps0_4 (W4 m ρ)
abbrev V5 := atTc (W5 m ρ)
def W6 := leaves (W5 m ρ) (dat0 (V5 m ρ))
abbrev W7 := host hostOps1 (W6 m ρ)
abbrev V7 := atTc (W7 m ρ)
def W8 := leaves (W7 m ρ) (dat1 (V7 m ρ))
abbrev W9 := host hostOps2 (W8 m ρ)
abbrev W10 := host hostOps2_1 (W9 m ρ)
abbrev V10 := atTc (W10 m ρ)
def W11 := leaves (W10 m ρ) (dat2 (V10 m ρ))
abbrev W12 := host hostOps3 (W11 m ρ)
abbrev V12 := atTc (W12 m ρ)
def W13 := leaves (W12 m ρ) (dat3 (V12 m ρ))
abbrev W14 := host hostOps4 (W13 m ρ)
abbrev W15 := host hostOps4_1 (W14 m ρ)
abbrev V15 := atTc (W15 m ρ)
def W16 := leaves (W15 m ρ) (dat4 (V15 m ρ))
abbrev W17 := host hostOps5 (W16 m ρ)
abbrev V17 := atTc (W17 m ρ)
def W18 := leaves (W17 m ρ) (dat5 (V17 m ρ))
abbrev W19 := host hostOps6 (W18 m ρ)
abbrev W20 := host hostOps6_1 (W19 m ρ)
abbrev V20 := atTc (W20 m ρ)
def W21 := leaves (W20 m ρ) (dat6 (V20 m ρ))
theorem W6_arr (c : Dev nD) (w : Fin cfg0.W) :
    W6 m ρ c (Proc.devRef .tc (Pipeline.arrRef spec0 w)) = (dat0 (V5 m ρ) c).arrAt w cfg0.N :=
  leaves_arr launch0.win.arr_inj _ _ c w
theorem W8_arr (c : Dev nD) (w : Fin cfg1.W) :
    W8 m ρ c (Proc.devRef .tc (Pipeline.arrRef spec1 w)) = (dat1 (V7 m ρ) c).arrAt w cfg1.N :=
  leaves_arr launch1.win.arr_inj _ _ c w
theorem W11_arr (c : Dev nD) (w : Fin cfg2.W) :
    W11 m ρ c (Proc.devRef .tc (Pipeline.arrRef spec2 w)) = (dat2 (V10 m ρ) c).arrAt w cfg2.N :=
  leaves_arr launch2.win.arr_inj _ _ c w
theorem W13_arr (c : Dev nD) (w : Fin cfg3.W) :
    W13 m ρ c (Proc.devRef .tc (Pipeline.arrRef spec3 w)) = (dat3 (V12 m ρ) c).arrAt w cfg3.N :=
  leaves_arr launch3.win.arr_inj _ _ c w
theorem W16_arr (c : Dev nD) (w : Fin cfg4.W) :
    W16 m ρ c (Proc.devRef .tc (Pipeline.arrRef spec4 w)) = (dat4 (V15 m ρ) c).arrAt w cfg4.N :=
  leaves_arr launch4.win.arr_inj _ _ c w
theorem W18_arr (c : Dev nD) (w : Fin cfg5.W) :
    W18 m ρ c (Proc.devRef .tc (Pipeline.arrRef spec5 w)) = (dat5 (V17 m ρ) c).arrAt w cfg5.N :=
  leaves_arr launch5.win.arr_inj _ _ c w
theorem W21_arr (c : Dev nD) (w : Fin cfg6.W) :
    W21 m ρ c (Proc.devRef .tc (Pipeline.arrRef spec6 w)) = (dat6 (V20 m ρ) c).arrAt w cfg6.N :=
  leaves_arr launch6.win.arr_inj _ _ c w

def pdats : (p : Fin 7) → (c : Dev nD) → Dat τ (Elt F) Unit ℕ (UR sig nD τ) ℕ (cfgs p) c
  | ⟨0, _⟩ => dat0 (V5 m ρ)
  | ⟨1, _⟩ => dat1 (V7 m ρ)
  | ⟨2, _⟩ => dat2 (V10 m ρ)
  | ⟨3, _⟩ => dat3 (V12 m ρ)
  | ⟨4, _⟩ => dat4 (V15 m ρ)
  | ⟨5, _⟩ => dat5 (V17 m ρ)
  | ⟨6, _⟩ => dat6 (V20 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- The thread state between two items: every unscoped buffer at the contents W. -/
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region p over the thread state, entered at W: its arrays are split out of the unscoped buffers and put back as it leaves them. -/
def regOf (p : Fin 7) (la : Pipeline.LaunchFacts (nD := nD) (τ := τ) cfgs p) (W : Dev nD → Valuation τ sig (Elt F))
    (hbody : ∀ c, BodyObligation (pdats m ρ p c) (defs₀ (F := F)) 𝒱₀ () Set.univ)
    (hin : ∀ c, Pipeline.ΦA (cfgs p).spec c ⊢ (pdats m ρ p c).Φ 0)
    (hout : ∀ c, (pdats m ρ p c).Φ (Fin.last _) ⊢ Pipeline.ΦA (cfgs p).spec c)
    (hq : ∀ c w, (pdats m ρ p c).q w = fullShare := by exact fun _ _ => rfl)
    (howed : ∀ c t, (pdats m ρ p c).owed t = 0 := by exact fun _ _ => rfl)
    (hrec : ∀ c, (pdats m ρ p c).recorded 0 = Set.univ := by exact fun _ => rfl)
    (hA : ∀ c w, (pdats m ρ p c).A w = W c (Pipeline.arrRef (cfgs p).spec w) := by exact fun _ _ => rfl) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre := T W
  post := T (leaves W (pdats m ρ p))
  X c := iprop(∃ r, prngReg c r)
  Y c := iprop(∃ r, prngReg c r)
  Z c := Pipeline.unscopedRest (Ix := Unit) (Name := ℕ) (U := UR sig nD τ) (Lvl := ℕ) (cfgs p).spec c (atTc W c)
  hentry c := by
    have hsplit := Pipeline.arrays_of_unscopedBufs (p := p) (pcfgs (F := F)) adm (pdats m ρ) la.win la.arr_whole c
      ((pdats m ρ p c).share_full (hq c)) (atTc W c) (hA c)
    rw [Pipeline.unscopedBufs_held] at hsplit
    unfold Pipeline.Dat.owesAt Pipeline.owesWithin Pipeline.prefHeld
    rw [howed, show (Finset.univ : Finset (Fin 0)) = ∅ from rfl, BI.bigSep_empty]
    iintro ⟨⟨Hub, Hp, %O, HO⟩, -, -⟩
    ihave ⟨Ha, Hrest⟩ := hsplit $$ Hub
    imodintro
    iframe Ha Hp Hrest
    isplitr; · iempintro
    iexists O; iframe
    ipureintro; exact fun _ _ => Or.inl (hrec c ▸ trivial)
  hin c := by
    refine .trans ?_ (hin c)
    unfold Pipeline.ΦA
    iintro ⟨Hp, -, Hr⟩; isplitl [Hr] <;> iassumption
  hout c := by
    refine (hout c).trans ?_
    unfold Pipeline.ΦA
    rw [Pipeline.ownSems0_none]
    iintro ⟨Hr, Hp⟩; iframe; iempintro
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (hq c))
      (atTc W c) (atTc (leaves W (pdats m ρ p)) c) ((pdats m ρ p c).arrAt · (cfgs p).N)
      (fun w => (leaves_arr la.win.arr_inj W _ c w).symm)
      (fun b hb => leaves_of_ne W _ c b fun w e => hb (Finset.mem_image.mpr ⟨w, Finset.mem_univ _, e⟩))
    rw [Pipeline.unscopedBufs_held] at hjoin
    unfold Pipeline.Dat.owesAt Pipeline.owesWithin
    rw [howed]
    iintro ⟨Ha, ⟨%O, -, HO⟩, HY, Hrest⟩
    imodintro
    isplitl [Ha Hrest]
    · iapply hjoin; iframe
    isplitl [HY]; · iexact HY
    iexists O; iexact HO

def reg0 := regOf m ρ 0 launch0 (W5 m ρ) (body_obligation0 _) (hin0 _) (hout0 _)
def reg1 := regOf m ρ 1 launch1 (W7 m ρ) (body_obligation1 _) (fun _ => .rfl) (fun _ => .rfl)
def reg2 := regOf m ρ 2 launch2 (W10 m ρ) (body_obligation2 _) (hin2 _) (hout2 _)
def reg3 := regOf m ρ 3 launch3 (W12 m ρ) (body_obligation3 _) (fun _ => .rfl) (fun _ => .rfl)
def reg4 := regOf m ρ 4 launch4 (W15 m ρ) (body_obligation4 _) (hin4 _) (hout4 _)
def reg5 := regOf m ρ 5 launch5 (W17 m ρ) (body_obligation5 _) (fun _ => .rfl) (fun _ => .rfl)
def reg6 := regOf m ρ 6 launch6 (W20 m ρ) (body_obligation6 _) (fun _ => .rfl) (fun _ => .rfl)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .host (hseg hostOps2_1 hostOps2_1_sub hostOps2_1_fresh (W9 m ρ)),
    .region (reg2 m ρ),
    .host (hseg hostOps3 hostOps3_sub hostOps3_fresh (W11 m ρ)),
    .region (reg3 m ρ),
    .host (hseg hostOps4 hostOps4_sub hostOps4_fresh (W13 m ρ)),
    .host (hseg hostOps4_1 hostOps4_1_sub hostOps4_1_fresh (W14 m ρ)),
    .region (reg4 m ρ),
    .host (hseg hostOps5 hostOps5_sub hostOps5_fresh (W16 m ρ)),
    .region (reg5 m ρ),
    .host (hseg hostOps6 hostOps6_sub hostOps6_fresh (W18 m ρ)),
    .host (hseg hostOps6_1 hostOps6_1_sub hostOps6_1_fresh (W19 m ρ)),
    .region (reg6 m ρ) ]

theorem main_run (c : Dev nD) : main (F := F) c = Pipeline.Seg.run (segs m ρ) := (main_chain c).trans (by chain_rfl)

set_option backward.isDefEq.respectTransparency.types false in
/-- Every weakly fair execution of @main from memory m terminates, and the final memory holds every unscoped buffer at W21. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := fun c => iprop(StableHlo.held (c : Thread nD τ) (Pipeline.ucRefs τ sig) (W21 m ρ c) ∗ ∃ r, prngReg c r))
    (hch := by repeat' apply And.intro
               all_goals first | exact fun _ => .rfl | exact fun _ => sep_assoc.2)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun _ h => h)

end Cert.Kernel.Reg

end
-- ==== Proof.K.Kept.lean ====
import proofs.«418208_j66958540145299_1_alg».proof.Proof.K.Main

noncomputable section

namespace Cert.Kernel.Reg

open Cert.Kernel Cert.Kernel.Gen
open Idealize.ShloMosaic Idealize.ShloMosaic.TcCoe
open Idealize.ShloMosaic.Pipeline (Dat Cfg)

variable {F : FTy → Type} [FloatOps F]

variable (m : (ℓ : Loc nD τ sig) → Buf (Elt F) ℓ) (ρ : Dev nD → PrngReg)

/-- The arrays of a pipeline's output windows. -/
abbrev outRefs (cfg : Cfg sig Λ₀) : List (Ref sig .tc) :=
  ((List.finRange cfg.W).filter fun w => (cfg.win w).isOut).map (Pipeline.arrRef cfg.spec)

/-- A region changes only its results: a buffer it does not stage is untouched, an input array ends as entered. -/
theorem leaves_keeps {cfg : Cfg sig Λ₀} (hinj : Function.Injective (Pipeline.arrRef cfg.spec)) (W : Dev nD → Valuation τ sig (Elt F))
    (d : (c : Dev nD) → Dat τ (Elt F) Unit ℕ (UR sig nD τ) ℕ cfg c) (c : Dev nD)
    (hA : ∀ w, (d c).A w = W c (Proc.devRef .tc (Pipeline.arrRef cfg.spec w))) {b : Ref sig .tc} (hb : b ∉ outRefs cfg) :
    leaves W d c (Proc.devRef .tc b) = W c (Proc.devRef .tc b) := by
  by_cases h : ∃ w, Pipeline.arrRef cfg.spec w = b
  · obtain ⟨w, rfl⟩ := h
    have hin := Bool.eq_false_iff.mpr fun ho => hb (List.mem_map.mpr ⟨w, List.mem_filter.mpr ⟨List.mem_finRange w, ho⟩, rfl⟩)
    exact (leaves_arr hinj W d c w).trans (((d c).arrAt_in w hin _).trans (hA w))
  · exact leaves_of_ne W d c b fun w e => h ⟨w, e⟩

/-- Contents at consecutive boundaries, the last being V₀: each agrees with the one before it off the list beside it. -/
inductive Steps (V₀ : Valuation τ sig (Elt F)) : List (Valuation τ sig (Elt F)) → List (List (Ref sig .tc)) → Prop
  | one : Steps V₀ [V₀] []
  | cons {V V' Vs l ls} : (∀ b ∉ l, V' (Proc.devRef .tc b) = V (Proc.devRef .tc b)) → Steps V₀ (V' :: Vs) ls →
      Steps V₀ (V :: V' :: Vs) (l :: ls)

theorem Steps.step {V₀ : Valuation τ sig (Elt F)} {Vs ls} (h : Steps V₀ Vs ls) {b : Ref sig .tc} :
    ∀ k, b ∉ ls.getD k [] → Vs.getD (k + 1) V₀ (Proc.devRef .tc b) = Vs.getD k V₀ (Proc.devRef .tc b) := by
  induction h with
  | one => intro k _; cases k <;> rfl
  | cons h0 _ ih => intro k hb; cases k with
    | zero => exact h0 b hb
    | succ k => exact ih k hb

/-- A buffer none of the d items after boundary i changes holds at boundary i + d what it held at i. -/
theorem Steps.keeps {V₀ : Valuation τ sig (Elt F)} {Vs ls} (h : Steps V₀ Vs ls) {b : Ref sig .tc} (i d : ℕ)
    (hb : ∀ k < d, b ∉ ls.getD (i + k) []) {V V' : Valuation τ sig (Elt F)} (hV : Vs[i]? = some V) (hV' : Vs[i + d]? = some V') :
    V' (Proc.devRef .tc b) = V (Proc.devRef .tc b) := by
  have key : Vs.getD (i + d) V₀ (Proc.devRef .tc b) = Vs.getD i V₀ (Proc.devRef .tc b) := by
    clear hV'
    induction d with
    | zero => rfl
    | succ d ih => exact (h.step (i + d) (hb d d.lt_succ_self)).trans (ih fun k hk => hb k (Nat.lt_succ_of_lt hk))
  rw [List.getD_eq_getElem?_getD, List.getD_eq_getElem?_getD, hV, hV'] at key
  exact key

/-- The contents at the 22 boundaries of @main, and the buffers the item after each boundary may change. -/
abbrev Ws (c : Dev nD) : List (Valuation τ sig (Elt F)) :=
  [W0 m ρ c, W1 m ρ c, W2 m ρ c, W3 m ρ c, W4 m ρ c, W5 m ρ c, W6 m ρ c, W7 m ρ c, W8 m ρ c, W9 m ρ c, W10 m ρ c, W11 m ρ c, W12 m ρ c, W13 m ρ c, W14 m ρ c, W15 m ρ c, W16 m ρ c, W17 m ρ c, W18 m ρ c, W19 m ρ c, W20 m ρ c, W21 m ρ c]
abbrev writes : List (List (Ref sig .tc)) :=
  [hostOps0_W, hostOps0_1_W, hostOps0_2_W, hostOps0_3_W, hostOps0_4_W, outRefs cfg0, hostOps1_W, outRefs cfg1, hostOps2_W, hostOps2_1_W, outRefs cfg2, hostOps3_W, outRefs cfg3, hostOps4_W, hostOps4_1_W, outRefs cfg4, hostOps5_W, outRefs cfg5, hostOps6_W, hostOps6_1_W, outRefs cfg6]

variable (c : Dev nD)

theorem steps : Steps (W21 m ρ c) (Ws m ρ c) writes :=
  .cons (fun _ => StableHlo.after_of_writes_sub hostOps0 _ hostOps0_writes) <|
  .cons (fun _ => StableHlo.after_of_writes_sub hostOps0_1 _ hostOps0_1_writes) <|
  .cons (fun _ => StableHlo.after_of_writes_sub hostOps0_2 _ hostOps0_2_writes) <|
  .cons (fun _ => StableHlo.after_of_writes_sub hostOps0_3 _ hostOps0_3_writes) <|
  .cons (fun _ => StableHlo.after_of_writes_sub hostOps0_4 _ hostOps0_4_writes) <|
  .cons (fun _ => leaves_keeps launch0.win.arr_inj _ _ c fun _ => rfl) <|
  .cons (fun _ => StableHlo.after_of_writes_sub hostOps1 _ hostOps1_writes) <|
  .cons (fun _ => leaves_keeps launch1.win.arr_inj _ _ c fun _ => rfl) <|
  .cons (fun _ => StableHlo.after_of_writes_sub hostOps2 _ hostOps2_writes) <|
  .cons (fun _ => StableHlo.after_of_writes_sub hostOps2_1 _ hostOps2_1_writes) <|
  .cons (fun _ => leaves_keeps launch2.win.arr_inj _ _ c fun _ => rfl) <|
  .cons (fun _ => StableHlo.after_of_writes_sub hostOps3 _ hostOps3_writes) <|
  .cons (fun _ => leaves_keeps launch3.win.arr_inj _ _ c fun _ => rfl) <|
  .cons (fun _ => StableHlo.after_of_writes_sub hostOps4 _ hostOps4_writes) <|
  .cons (fun _ => StableHlo.after_of_writes_sub hostOps4_1 _ hostOps4_1_writes) <|
  .cons (fun _ => leaves_keeps launch4.win.arr_inj _ _ c fun _ => rfl) <|
  .cons (fun _ => StableHlo.after_of_writes_sub hostOps5 _ hostOps5_writes) <|
  .cons (fun _ => leaves_keeps launch5.win.arr_inj _ _ c fun _ => rfl) <|
  .cons (fun _ => StableHlo.after_of_writes_sub hostOps6 _ hostOps6_writes) <|
  .cons (fun _ => StableHlo.after_of_writes_sub hostOps6_1 _ hostOps6_1_writes) <|
  .cons (fun _ => leaves_keeps launch6.win.arr_inj _ _ c fun _ => rfl) .one

/-- The contents V' at boundary i + d agree with the contents V at boundary i on a buffer none of the d items between changes. -/
theorem keeps {V V' : Valuation τ sig (Elt F)} (b : Ref sig .tc) (i d : ℕ) (hb : ∀ k < d, b ∉ writes.getD (i + k) [])
    (hV : (Ws m ρ c)[i]? = some V := by exact rfl) (hV' : (Ws m ρ c)[i + d]? = some V' := by exact rfl) :
    V' (Proc.devRef .tc b) = V (Proc.devRef .tc b) :=
  (steps m ρ c).keeps i d hb hV hV'

/-- The program's ten arguments: no item writes one, so at the end each holds its launch contents. -/
abbrev argRefs : List (Ref sig .tc) := [main_arg0, main_arg1, main_arg2, main_arg3, main_arg4, main_arg5, main_arg6, main_arg7, main_arg8, main_arg9]
theorem args_kept {s : MemSt nD τ sig (Elt F)} (h : ∀ b ∈ Pipeline.ucRefs τ sig, s.mem ((c : Thread nD τ).1, b) = W21 m ρ c b)
    (b : Ref sig .tc) (hb : b ∈ argRefs) : s.mem ((c : Thread nD τ).loc b) = m ((c : Thread nD τ).loc b) :=
  (h _ (mem_uc b ((by decide : ∀ b ∈ argRefs, ¬ (Proc.devRef .tc b : DevRef τ sig).isScoped) b hb))).trans
    (keeps m ρ c b 0 21 ((by decide : ∀ b ∈ argRefs, ∀ k < 21, b ∉ writes.getD (0 + k) []) b hb) (V := W0 m ρ c))

end Cert.Kernel.Reg

end
-- ==== Proof.KI.Affine1.lean ====
import proofs.«418208_j66958540145299_1_alg».proof.Proof.Gen.KernelIdeal.Launch
import proofs.«418208_j66958540145299_1_alg».proof.Proof.Gen.KernelIdeal.Skeleton
import proofs.«418208_j66958540145299_1_alg».proof.Proof.Gen.KernelIdeal.Points
import Idealize.ShloMosaic.Lib.Pipeline.FrameBody
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_whole : Rect S5000x128 := Rect.unit (s := S5000x128) ![0, 0] S5000x128.size inb_S5000x128_S5000x128_0_0

/-- What the affine kernel's one store leaves in its result buffer, as a function of the three input buffers' contents. -/
def out1_3 (x0 : Vec F S5000x128 .f32) (x1 : Vec F S1x128 .f32) (x2 : Vec F S1x128 .f32) : Vec F S5000x128 .f32 :=
  View.canon [⟨r1_whole, k1_pay1 (View.ld x0 r1_whole) (View.ld x1 (Rect.unit (s := S1x128) ![0, 0] S1x128.size inb_S1x128_S1x128_0_0)) (View.ld x2 (Rect.unit (s := S1x128) ![0, 0] S1x128.size inb_S1x128_S1x128_0_0))⟩]

theorem cover1_3 (p0 : Vec F S5000x128 .f32) (y : S5000x128.Idx) :
    ∃ pc ∈ ([⟨r1_whole, p0⟩] : List (View.Piece (Elt F) S5000x128 .f32)), y ∈ pc.1.set :=
  View.cover_of_tiled [⟨r1_whole, p0⟩] S5000x128.size (by rfl) y

set_option maxHeartbeats 1000000 in
/-- The affine kernel on any whole memrefs keeps its inputs and ends with out1_3 of them in the result: the store covers the buffer. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bn_apply_kernel i arg1 harg1 arg2 harg2 arg3 harg3 arg4 harg4) K := by
  simp only [cc1__bn_apply_kernel_eq_skeleton]; unfold cc1__bn_apply_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ (cover1_3 _)

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data at entry contents V: each input buffer keeps its block, the result's ends at out1_3 of the point's blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2]
  dsimp only [dat1]
  show _ ⊢ wp _ _ _ (bodyAt1 t) _
  iintro ⟨HΦ, Ho, ⟨%d0, H0⟩, ⟨%d1, H1⟩, ⟨%d2, H2⟩, %d3, H3⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe
  iexact Ho

end Cert.KernelIdeal.Reg

end
-- ==== Proof.KI.Affine3.lean ====
import proofs.«418208_j66958540145299_1_alg».proof.Proof.KI.Affine1

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Region 3 runs the same kernel function as region 1, under another name. -/
theorem kernel3_eq : @cc3__bn_apply_kernel F _ = @cc1__bn_apply_kernel F _ := rfl

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The region's proof data at entry contents V: each input buffer keeps its block, the result's ends at out1_3 of the point's blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out1_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = out1_3 (iblk3 V c 0 t) (iblk3 V c 1 t) (iblk3 V c 2 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp only [before3_0, before3_1, before3_2]
  dsimp only [dat3]
  show _ ⊢ wp _ _ _ (bodyAt3 t) _
  unfold bodyAt3
  rewrite [kernel3_eq]
  iintro ⟨HΦ, Ho, ⟨%d0, H0⟩, ⟨%d1, H1⟩, ⟨%d2, H2⟩, %d3, H3⟩
  iapply (sound_kernel1 c Set.univ _ _ _ _ _ _ _ _ _ (iblk3 V c 0 t) (iblk3 V c 1 t) (iblk3 V c 2 t) _)
  iframe H0 H1 H2
  isplitl [H3]; · iexists _; iexact H3
  iintro ⟨H0, H1, H2, H3⟩
  iframe
  iexact Ho

end Cert.KernelIdeal.Reg

end
-- ==== Proof.KI.Affine5.lean ====
import proofs.«418208_j66958540145299_1_alg».proof.Proof.KI.Affine1

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Region 5 runs the same kernel function as region 1, under another name. -/
theorem kernel5_eq : @cc5__bn_apply_kernel F _ = @cc1__bn_apply_kernel F _ := rfl

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The region's proof data at entry contents V: each input buffer keeps its block, the result's ends at out1_3 of the point's blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out1_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := rfl

theorem after5_3 (c : Dev nD) (t : Fin cfg5.N) :
    (dat5 V c).after 3 t = out1_3 (iblk5 V c 0 t) (iblk5 V c 1 t) (iblk5 V c 2 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp only [before5_0, before5_1, before5_2]
  dsimp only [dat5]
  show _ ⊢ wp _ _ _ (bodyAt5 t) _
  unfold bodyAt5
  rewrite [kernel5_eq]
  iintro ⟨HΦ, Ho, ⟨%d0, H0⟩, ⟨%d1, H1⟩, ⟨%d2, H2⟩, %d3, H3⟩
  iapply (sound_kernel1 c Set.univ _ _ _ _ _ _ _ _ _ (iblk5 V c 0 t) (iblk5 V c 1 t) (iblk5 V c 2 t) _)
  iframe H0 H1 H2
  isplitl [H3]; · iexists _; iexact H3
  iintro ⟨H0, H1, H2, H3⟩
  iframe
  iexact Ho

end Cert.KernelIdeal.Reg

end
-- ==== Proof.KI.Sigmoid6.lean ====
import proofs.«418208_j66958540145299_1_alg».proof.Proof.Gen.KernelIdeal.Launch
import proofs.«418208_j66958540145299_1_alg».proof.Proof.Gen.KernelIdeal.Skeleton
import proofs.«418208_j66958540145299_1_alg».proof.Proof.Gen.KernelIdeal.Points
import Idealize.ShloMosaic.Lib.Pipeline.FrameBody
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_whole : Rect S5000x1 := Rect.unit (s := S5000x1) ![0, 0] S5000x1.size inb_S5000x1_S5000x1_0_0
abbrev r6_rows : Rect S5000x128 := Rect.unit (s := S5000x128) ![0, 0] S5000x128.size inb_S5000x128_S5000x128_0_0
abbrev r6_col : Rect S128x1 := Rect.unit (s := S128x1) ![0, 0] S128x1.size inb_S128x1_S128x1_0_0
abbrev r6_one : Rect S1x1 := Rect.unit (s := S1x1) ![0, 0] S1x1.size inb_S1x1_S1x1_0_0

/-- What the output kernel's one store leaves in its result buffer, as a function of the five input buffers' contents. -/
def out6_5 (x0 : Vec F S5000x128 .f32) (x1 : Vec F S5000x128 .f32) (x2 : Vec F S128x1 .f32) (x3 : Vec F S128x1 .f32) (x4 : Vec F S1x1 .f32) :
    Vec F S5000x1 .f32 :=
  View.canon [⟨r6_whole, k6_pay1 (View.ld x0 r6_rows) (View.ld x1 r6_rows) (View.ld x2 r6_col) (View.ld x3 r6_col) (View.ld x4 r6_one)⟩]

theorem cover6_5 (p0 : Vec F S5000x1 .f32) (y : S5000x1.Idx) :
    ∃ pc ∈ ([⟨r6_whole, p0⟩] : List (View.Piece (Elt F) S5000x1 .f32)), y ∈ pc.1.set :=
  View.cover_of_tiled [⟨r6_whole, p0⟩] S5000x1.size (by rfl) y

set_option maxHeartbeats 1000000 in
/-- The output kernel on any whole memrefs keeps its inputs and ends with out6_5 of them in the result: the store covers the buffer. -/
theorem sound_kernel6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S5000x1 .f32) (harg6 : arg6.IsWhole)
    (x0 : Vec F S5000x128 .f32) (x1 : Vec F S5000x128 .f32) (x2 : Vec F S128x1 .f32) (x3 : Vec F S128x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__combine_sigmoid_kernel i arg1 harg1 arg2 harg2 arg3 harg3 arg4 harg4 arg5 harg5 arg6 harg6) K := by
  simp only [cc6__combine_sigmoid_kernel_eq_skeleton]; unfold cc6__combine_sigmoid_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact View.read_writes_eq_canon _ _ _ (cover6_5 _)

/-- The region's proof data at entry contents V: each input buffer keeps its block, the result's ends at out6_5 of the point's blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl

theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (c : Dev nD) (t : Fin cfg6.N) (d) : (dat6 V c).before 4 t d = iblk6 V c 4 t :=
  (dat6 V c).before_in_eq_fetched 4 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  simp only [before6_0, before6_1, before6_2, before6_3, before6_4]
  dsimp only [dat6]
  show _ ⊢ wp _ _ _ (bodyAt6 t) _
  iintro ⟨HΦ, Ho, ⟨%d0, H0⟩, ⟨%d1, H1⟩, ⟨%d2, H2⟩, ⟨%d3, H3⟩, ⟨%d4, H4⟩, %d5, H5⟩
  iapply (sound_kernel6 c Set.univ _ _ _ _ _ _ _ _ _ _ _ _ _
    (iblk6 V c 0 t) (iblk6 V c 1 t) (iblk6 V c 2 t) (iblk6 V c 3 t) (iblk6 V c 4 t) _)
  iframe H0 H1 H2 H3 H4
  isplitl [H5]; · iexists _; iexact H5
  iintro ⟨H0, H1, H2, H3, H4, H5⟩
  iframe
  iexact Ho

end Cert.KernelIdeal.Reg

end
-- ==== Proof.KI.Stats0.lean ====
import proofs.«418208_j66958540145299_1_alg».proof.Proof.Gen.KernelIdeal.Launch
import proofs.«418208_j66958540145299_1_alg».proof.Proof.Gen.KernelIdeal.Skeleton
import proofs.«418208_j66958540145299_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop :=
  (Scalar.cmpi .ne (Scalar.extui (Scalar.cmpi .eq (BitVec.ofNat 32 (i 0).val) 0#32)) 0#32) = 1#1

theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1

theorem hcond0_1 : ∀ t : Fin cfg0.N, cond0_1 (grid0.coords t) ↔ t.val % 20 = 19 :=
  (by decide +kernel : ∀ t : Fin grid0.N, cond0_1 (grid0.coords t) ↔ t.val % 20 = 19)

theorem liveAt0 : ∀ w : Fin cfg0.W, w.val < 6 → ∀ t : Fin cfg0.N, cfg0.idle w (grid0.coords t) = false := by decide +kernel

theorem idleAt0_6 : ∀ t : Fin cfg0.N, ¬cond0_1 (grid0.coords t) → cfg0.idle 6 (grid0.coords t) = true := by decide +kernel

theorem noFlush0_6 : ∀ t : Fin cfg0.N, ¬cond0_1 (grid0.coords t) → (cfg0.win 6).flush t = false := by decide +kernel

theorem liveAt0_6 : ∀ t : Fin cfg0.N, cond0_1 (grid0.coords t) → cfg0.idle 6 (grid0.coords t) = false := by decide +kernel

def sum0 (x0 x1 : Vec F S5000x128 .f32) (x2 x3 : Vec F S128x128 .f32) (x4 : Vec F S1x128 .f32) (s : Vec F S1x128 .f32) : Vec F S1x128 .f32 :=
  k0_pay5 x0 x1 x2 x3 x4 s

def sq0 (x0 x1 : Vec F S5000x128 .f32) (x2 x3 : Vec F S128x128 .f32) (x4 : Vec F S1x128 .f32) (q : Vec F S1x128 .f32) : Vec F S1x128 .f32 :=
  k0_pay1 (k0_pay4 x0 x1 x2 x3 x4) q

abbrev r0_big : Rect S5000x128 := Rect.unit (s := S5000x128) ![0, 0] S5000x128.size inb_S5000x128_S5000x128_0_0
abbrev r0_mat : Rect S128x128 := Rect.unit (s := S128x128) ![0, 0] S128x128.size inb_S128x128_S128x128_0_0
abbrev r0_row : Rect S1x128 := Rect.unit (s := S1x128) ![0, 0] S1x128.size inb_S1x128_S1x128_0_0
abbrev r0_st0 : Rect S2x128 := Rect.unit (s := S2x128) ![0, 0] S1x128.size inb_S2x128_S1x128_0_0
abbrev r0_st1 : Rect S2x128 := Rect.unit (s := S2x128) ![1, 0] S1x128.size inb_S2x128_S1x128_1_0

def out0_5 (x0 x1 : Vec F S5000x128 .f32) (x2 x3 : Vec F S128x128 .f32) (x4 : Vec F S1x128 .f32) : Vec F S5000x128 .f32 :=
  View.canon [⟨r0_big, k0_pay4 (View.ld x0 r0_big) (View.ld x1 r0_big) (View.ld x2 r0_mat) (View.ld x3 r0_mat) (View.ld x4 r0_row)⟩]

def out0_6 (s q : Vec F S1x128 .f32) : Vec F S2x128 .f32 :=
  View.canon [⟨r0_st1, q⟩, ⟨r0_st0, s⟩]

theorem zeros0 : (![0, 0] : Fin 2 → ℕ) = fun _ => 0 := by funext a; fin_cases a <;> rfl

theorem readAt_unit_zero0 {sig' : RefSig} {κ : Kind} {sp : Space} {S : Shape} {e : EltTy} {Val : EltTy → Type}
    (v : View sig' κ sp S e) {off : Fin S.rank → Nat} (h : off = fun _ => 0) (inb : ∀ a, off a + S.size a ≤ S.size a)
    (f : v.ty.Contents Val) : v.readAt Val (Rect.unit off S.size inb).toLoadRect f = v.read Val f :=
  View.ld_unit_zero h inb (v.read Val f)

theorem out0_5_eq (x0 x1 : Vec F S5000x128 .f32) (x2 x3 : Vec F S128x128 .f32) (x4 : Vec F S1x128 .f32) :
    out0_5 x0 x1 x2 x3 x4 = k0_pay4 x0 x1 x2 x3 x4 := by
  unfold out0_5
  rw [View.canon_unit_zero (S := S5000x128) zeros0]
  rw [View.ld_unit_zero (S := S5000x128) zeros0, View.ld_unit_zero (S := S5000x128) zeros0, View.ld_unit_zero (S := S128x128) zeros0,
    View.ld_unit_zero (S := S128x128) zeros0, View.ld_unit_zero (S := S1x128) zeros0]

theorem cover0_5 (p0 : Vec F S5000x128 .f32) (y : S5000x128.Idx) :
    ∃ pc ∈ ([⟨r0_big, p0⟩] : List (View.Piece (Elt F) S5000x128 .f32)), y ∈ pc.1.set :=
  View.cover_of_tiled [⟨r0_big, p0⟩] S5000x128.size (by rfl) y

theorem cover0_6 (p0 p1 : Vec F S1x128 .f32) (y : S2x128.Idx) :
    ∃ pc ∈ ([⟨r0_st1, p1⟩, ⟨r0_st0, p0⟩] : List (View.Piece (Elt F) S2x128 .f32)), y ∈ pc.1.set :=
  View.cover_of_tiled [⟨r0_st1, p1⟩, ⟨r0_st0, p0⟩] S1x128.size (by rfl) y

theorem read_row0 (v : View sig .tc .vmem S1x128 .f32) (f : v.ty.Contents (Elt F)) (w : Vec F S1x128 .f32)
    (L : List (View.Piece (Elt F) S1x128 .f32)) : v.read (Elt F) (v.writes (Elt F) f (⟨r0_row, w⟩ :: L)) = w := by
  have hc : ∀ y : S1x128.Idx, ∃ p ∈ ((⟨r0_row, w⟩ : View.Piece (Elt F) S1x128 .f32) :: L), y ∈ p.1.set :=
    fun y => ⟨_, List.mem_cons_self, View.mem_set_unit_zero (S := S1x128) zeros0 inb_S1x128_S1x128_0_0 y⟩
  rw [View.read_writes_eq_canon v f _ hc]
  exact View.canon_cons_unit_zero (S := S1x128) zeros0 inb_S1x128_S1x128_0_0 w L

theorem readAt_big0 (v : View sig .tc .vmem S5000x128 .f32) (f : v.ty.Contents (Elt F)) :
    v.readAt (Elt F) r0_big.toLoadRect f = v.read (Elt F) f := readAt_unit_zero0 v zeros0 _ f
theorem readAt_mat0 (v : View sig .tc .vmem S128x128 .f32) (f : v.ty.Contents (Elt F)) :
    v.readAt (Elt F) r0_mat.toLoadRect f = v.read (Elt F) f := readAt_unit_zero0 v zeros0 _ f
theorem readAt_row0 (v : View sig .tc .vmem S1x128 .f32) (f : v.ty.Contents (Elt F)) :
    v.readAt (Elt F) r0_row.toLoadRect f = v.read (Elt F) f := readAt_unit_zero0 v zeros0 _ f

set_option maxHeartbeats 1000000 in
/-- The statistics kernel on any whole memrefs: the inputs stay, the result block is out0_5 of them, the two running rows restart at the first point and go on otherwise, and the last point writes them out. -/
theorem sound_kernel0 (c : Dev nD) (E : Set ℕ) (i : grid0.Coords) (hc : cond0_0 i → ¬cond0_1 i)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S2x128 .f32) (harg7 : arg7.IsWhole) (arg8 : Memref sig .tc .vmem S1x128 .f32) (harg8 : arg8.IsWhole)
    (arg9 : Memref sig .tc .vmem S1x128 .f32) (harg9 : arg9.IsWhole)
    (x0 x1 : Vec F S5000x128 .f32) (x2 x3 : Vec F S128x128 .f32) (x4 : Vec F S1x128 .f32) (d7 : Vec F S2x128 .f32) (s q : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare d7
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out0_5 x0 x1 x2 x3 x4)
            ∗ owns (c : Thread nD τ) arg7 fullShare (if cond0_1 i then out0_6 (sum0 x0 x1 x2 x3 x4 s) (sq0 x0 x1 x2 x3 x4 q) else d7)
            ∗ owns (c : Thread nD τ) arg8 fullShare (sum0 x0 x1 x2 x3 x4 (if cond0_0 i then k0_pay2 else s))
            ∗ owns (c : Thread nD τ) arg9 fullShare (sq0 x0 x1 x2 x3 x4 (if cond0_0 i then k0_pay3 else q))) -∗ K ⟨⟩))
      ⊢ wp frame (wpE (defs₀ (F := F)) Variants.none c none) E
          (cc0__combine_relu_stats_kernel i arg1 harg1 arg2 harg2 arg3 harg3 arg4 harg4 arg5 harg5 arg6 harg6 arg7 harg7 arg8 harg8 arg9 harg9) K := by
  simp only [cc0__combine_relu_stats_kernel_eq_skeleton, k0_part1_eq_skeleton]; unfold cc0__combine_relu_stats_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, ⟨%f8, %hf8, H8⟩, ⟨%f9, %hf9, H9⟩, Hk⟩
  subst hf0 hf1 hf2 hf3 hf4 hf7 hf8 hf9
  by_cases hc0 : cond0_0 i
  · have hc1 := hc hc0
    rewrite [if_pos hc0, if_pos hc0, if_neg hc1]
    sl_exec (disch := first | exact hc0 | exact hc1)
    sl_step
    iapply Hk
    isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    isplitl [H5]; · iexists _; iframe H5; ipureintro; exact View.read_writes_eq_canon _ _ _ (cover0_5 _)
    isplitl [H7]; · iexists f7; iframe H7; ipureintro; rfl
    isplitl [H8]
    · iexists _; iframe H8; ipureintro
      sl_unfold_run_names
      rw [read_row0]; unfold sum0
      rw [View.readCov_cons_toLoadRect, readAt_big0, readAt_big0, readAt_mat0, readAt_mat0, readAt_row0]
    iexists _; iframe H9; ipureintro
    sl_unfold_run_names
    rw [read_row0]; unfold sq0
    rw [View.readCov_cons_toLoadRect, readAt_big0, readAt_big0, readAt_mat0, readAt_mat0, readAt_row0]
  rewrite [if_neg hc0, if_neg hc0]
  by_cases hc1 : cond0_1 i
  · rewrite [if_pos hc1]
    sl_exec (disch := first | exact hc0 | exact hc1)
    sl_step
    iapply Hk
    isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    isplitl [H5]; · iexists _; iframe H5; ipureintro; exact View.read_writes_eq_canon _ _ _ (cover0_5 _)
    isplitl [H7]
    · iexists _; iframe H7; ipureintro
      sl_unfold_run_names
      rw [View.read_writes_eq_canon _ _ _ (cover0_6 _ _)]
      unfold out0_6 sum0 sq0
      rw [View.readCov_cons_toLoadRect, View.readCov_cons_toLoadRect, readAt_big0, readAt_big0, readAt_mat0, readAt_mat0, readAt_row0, readAt_row0, readAt_row0]
    isplitl [H8]
    · iexists _; iframe H8; ipureintro
      sl_unfold_run_names
      rw [read_row0]; unfold sum0
      rw [readAt_big0, readAt_big0, readAt_mat0, readAt_mat0, readAt_row0, readAt_row0]
    iexists _; iframe H9; ipureintro
    sl_unfold_run_names
    rw [read_row0]; unfold sq0
    rw [readAt_big0, readAt_big0, readAt_mat0, readAt_mat0, readAt_row0, readAt_row0]
  rewrite [if_neg hc1]
  sl_exec (disch := first | exact hc0 | exact hc1)
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists _; iframe H5; ipureintro; exact View.read_writes_eq_canon _ _ _ (cover0_5 _)
  isplitl [H7]; · iexists f7; iframe H7; ipureintro; rfl
  isplitl [H8]
  · iexists _; iframe H8; ipureintro
    sl_unfold_run_names
    rw [read_row0]; unfold sum0
    rw [readAt_big0, readAt_big0, readAt_mat0, readAt_mat0, readAt_row0, readAt_row0]
  iexists _; iframe H9; ipureintro
  sl_unfold_run_names
  rw [read_row0]; unfold sq0
  rw [readAt_big0, readAt_big0, readAt_mat0, readAt_mat0, readAt_row0, readAt_row0]

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def accAt0 (c : Dev nD) : (n : ℕ) → n < cfg0.N → Vec F S1x128 .f32 × Vec F S1x128 .f32
  | 0, hn => (sum0 (iblk0 V c 0 ⟨0, hn⟩) (iblk0 V c 1 ⟨0, hn⟩) (iblk0 V c 2 ⟨0, hn⟩) (iblk0 V c 3 ⟨0, hn⟩) (iblk0 V c 4 ⟨0, hn⟩) k0_pay2, sq0 (iblk0 V c 0 ⟨0, hn⟩) (iblk0 V c 1 ⟨0, hn⟩) (iblk0 V c 2 ⟨0, hn⟩) (iblk0 V c 3 ⟨0, hn⟩) (iblk0 V c 4 ⟨0, hn⟩) k0_pay3)
  | n + 1, hn => (sum0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1,
      sq0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).2)

theorem accAt0_zero (c : Dev nD) (hn : 0 < cfg0.N) :
    accAt0 V c 0 hn = (sum0 (iblk0 V c 0 ⟨0, hn⟩) (iblk0 V c 1 ⟨0, hn⟩) (iblk0 V c 2 ⟨0, hn⟩) (iblk0 V c 3 ⟨0, hn⟩) (iblk0 V c 4 ⟨0, hn⟩) k0_pay2, sq0 (iblk0 V c 0 ⟨0, hn⟩) (iblk0 V c 1 ⟨0, hn⟩) (iblk0 V c 2 ⟨0, hn⟩) (iblk0 V c 3 ⟨0, hn⟩) (iblk0 V c 4 ⟨0, hn⟩) k0_pay3) := rfl

theorem accAt0_succ (c : Dev nD) (n : ℕ) (hn : n + 1 < cfg0.N) :
    accAt0 V c (n + 1) hn = (sum0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 V c n (Nat.lt_of_succ_lt hn)).1,
      sq0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 V c n (Nat.lt_of_succ_lt hn)).2) := rfl

theorem accAt0_first (c : Dev nD) (t : Fin cfg0.N) (hz : t.val = 0) :
    accAt0 V c t.val t.isLt = (sum0 (iblk0 V c 0 t) (iblk0 V c 1 t) (iblk0 V c 2 t) (iblk0 V c 3 t) (iblk0 V c 4 t) k0_pay2, sq0 (iblk0 V c 0 t) (iblk0 V c 1 t) (iblk0 V c 2 t) (iblk0 V c 3 t) (iblk0 V c 4 t) k0_pay3) := by
  obtain ⟨n, hn⟩ := t
  cases n with
  | zero => rfl
  | succ n => exact absurd hz (Nat.succ_ne_zero n)

theorem accAt0_pos (c : Dev nD) (t : Fin cfg0.N) (hz : t.val ≠ 0) :
    accAt0 V c t.val t.isLt = (sum0 (iblk0 V c 0 t) (iblk0 V c 1 t) (iblk0 V c 2 t) (iblk0 V c 3 t) (iblk0 V c 4 t) (accAt0 V c (t.val - 1) (Nat.lt_of_le_of_lt (Nat.sub_le _ _) t.isLt)).1,
      sq0 (iblk0 V c 0 t) (iblk0 V c 1 t) (iblk0 V c 2 t) (iblk0 V c 3 t) (iblk0 V c 4 t) (accAt0 V c (t.val - 1) (Nat.lt_of_le_of_lt (Nat.sub_le _ _) t.isLt)).2) := by
  obtain ⟨n, hn⟩ := t
  cases n with
  | zero => exact absurd rfl hz
  | succ n => rfl

abbrev scM0_0 : Memref sig .tc .vmem S1x128 .f32 := Memref.whole cc0_scratch0
abbrev scM0_1 : Memref sig .tc .vmem S1x128 .f32 := Memref.whole cc0_scratch1

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

def PhiAcc0 (c : Dev nD) (a : Vec F S1x128 .f32 × Vec F S1x128 .f32) : sProp 𝕄 :=
  iprop(iprop(iprop(owns (c : Thread nD τ) scM0_0 fullShare a.1 ∗ owns (c : Thread nD τ) scM0_1 fullShare a.2)
      ∗ Pipeline.scopedRestBut (Ix := Unit) (Name := ℕ) (U := UR sig nD τ) (Lvl := ℕ) (Val := Elt F) spec0 c [cc0_scratch0, cc0_scratch1])
      ∗ (∃ r, prngReg c r))

/-- The region's invariant before point n: the scratch rows hold the running sums of the points before it. -/
def PhiS0 (c : Dev nD) : (n : ℕ) → n ≤ cfg0.N → sProp 𝕄
  | 0, _ => Pipeline.ΦA spec0 c
  | n + 1, hn => PhiAcc0 c (accAt0 V c n hn)

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) : PhiS0 V c n h = PhiAcc0 c (accAt0 V c (n - 1) (by omega)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (accAt0 V c t.val t.isLt).1 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) :
    (dat0 V c).after 6 t = out0_6 (accAt0 V c t.val t.isLt).1 (accAt0 V c t.val t.isLt).2 := by dsimp only [dat0]

theorem lt19_0 : 19 < cfg0.N := by rw [show cfg0.N = 20 from N_0]; omega

theorem after0_6_last (c : Dev nD) (t : Fin cfg0.N) (h : t.val = 19) :
    (dat0 V c).after 6 t = out0_6 (accAt0 V c 19 lt19_0).1 (accAt0 V c 19 lt19_0).2 := by
  rw [after0_6]
  obtain ⟨n, hn⟩ := t
  dsimp only at h
  subst h
  rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

theorem leaves0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiAcc0 c (accAt0 V c t.val t.isLt) from rfl]; unfold PhiAcc0
  rw [leaves0 V c 0 t (liveAt0 0 (by decide) t), leaves0 V c 1 t (liveAt0 1 (by decide) t), leaves0 V c 2 t (liveAt0 2 (by decide) t),
    leaves0 V c 3 t (liveAt0 3 (by decide) t), leaves0 V c 4 t (liveAt0 4 (by decide) t), leaves0 V c 5 t (liveAt0 5 (by decide) t),
    after0_0, after0_1, after0_2, after0_3, after0_4, after0_5]
  have hN : t.val < 20 := lt_of_lt_of_eq t.isLt (show cfg0.N = 20 from N_0)
  by_cases h0 : t.val % 20 = 0
  · have hz : t.val = 0 := by omega
    have c0 : cond0_0 (grid0.coords t) := (hcond0_0 t).mpr h0
    have c1 : ¬cond0_1 (grid0.coords t) := fun h => by have := (hcond0_1 t).mp h; omega
    rw [Dat.leavesExact_idle (dat0 V c) 6 t (idleAt0_6 t c1) (noFlush0_6 t c1)]
    rw [accAt0_first V c t hz]; dsimp only
    rw [PhiS0_castSucc V c t, PhiS0_zero V c _ _ hz, PhiA0_eq]
    iintro ⟨⟨⟨⟨⟨%s, HS0⟩, %q, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0 c Set.univ (grid0.coords t) (fun _ => c1) _ _ _ _ _ _ _ _ _ _ _ _ _ _ _ _ _ _
      (iblk0 V c 0 t) (iblk0 V c 1 t) (iblk0 V c 2 t) (iblk0 V c 3 t) (iblk0 V c 4 t) _ _ _ _)
    iframe
    isplitl [H5]; · iexists _; iexact H5
    rewrite [if_pos c0, if_pos c0, if_neg c1]
    iintro ⟨H0, H1, H2, H3, H4, H5, H6, HS0, HS1⟩
    iframe
    iexists _; iexact H6
  · have hz : t.val ≠ 0 := by omega
    have c0 : ¬cond0_0 (grid0.coords t) := fun h => h0 ((hcond0_0 t).mp h)
    rw [accAt0_pos V c t hz]; dsimp only
    rw [PhiS0_castSucc V c t, PhiS0_pos V c _ _ hz]; unfold PhiAcc0
    by_cases h1 : t.val % 20 = 19
    · have c1 : cond0_1 (grid0.coords t) := (hcond0_1 t).mpr h1
      rw [leaves0 V c 6 t (liveAt0_6 t c1), after0_6]
      rw [accAt0_pos V c t hz]; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0 c Set.univ (grid0.coords t) (fun a => (c0 a).elim) _ _ _ _ _ _ _ _ _ _ _ _ _ _ _ _ _ _
      (iblk0 V c 0 t) (iblk0 V c 1 t) (iblk0 V c 2 t) (iblk0 V c 3 t) (iblk0 V c 4 t) _ _ _ _)
      iframe
      isplitl [H5]; · iexists _; iexact H5
      rewrite [if_neg c0, if_neg c0, if_pos c1]
      iintro ⟨H0, H1, H2, H3, H4, H5, H6, HS0, HS1⟩
      iframe
    · have c1 : ¬cond0_1 (grid0.coords t) := fun h => h1 ((hcond0_1 t).mp h)
      rw [Dat.leavesExact_idle (dat0 V c) 6 t (idleAt0_6 t c1) (noFlush0_6 t c1)]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0 c Set.univ (grid0.coords t) (fun a => (c0 a).elim) _ _ _ _ _ _ _ _ _ _ _ _ _ _ _ _ _ _
      (iblk0 V c 0 t) (iblk0 V c 1 t) (iblk0 V c 2 t) (iblk0 V c 3 t) (iblk0 V c 4 t) _ _ _ _)
      iframe
      isplitl [H5]; · iexists _; iexact H5
      rewrite [if_neg c0, if_neg c0, if_neg c1]
      iintro ⟨H0, H1, H2, H3, H4, H5, H6, HS0, HS1⟩
      iframe
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]; unfold PhiAcc0
  iintro ⟨⟨⟨HS0, HS1⟩, Hrest⟩, Hg⟩
  iframe Hrest Hg
  isplitl [HS0]; · iexists _; iexact HS0
  iexists _; iexact HS1

theorem hout0 (c : Dev nD) : (dat0 V c).Φ (Fin.last cfg0.N) ⊢ Pipeline.ΦA spec0 c :=
  Phi_out0 V c _ (by rw [Fin.val_last]; have : cfg0.N = 20 := N_0; omega)

end Cert.KernelIdeal.Reg

end
-- ==== Proof.KI.Stats2.lean ====
import proofs.«418208_j66958540145299_1_alg».proof.Proof.KI.Stats0

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop :=
  (Scalar.cmpi .ne (Scalar.extui (Scalar.cmpi .eq (BitVec.ofNat 32 (i 0).val) 0#32)) 0#32) = 1#1

theorem hcond2_0 : ∀ t : Fin cfg2.N, cond2_0 (grid2.coords t) ↔ t.val % 20 = 0 :=
  (by decide +kernel : ∀ t : Fin grid2.N, cond2_0 (grid2.coords t) ↔ t.val % 20 = 0)

abbrev cond2_1 (i : grid2.Coords) : Prop := k2_cond2 i = 1#1

theorem hcond2_1 : ∀ t : Fin cfg2.N, cond2_1 (grid2.coords t) ↔ t.val % 20 = 19 :=
  (by decide +kernel : ∀ t : Fin grid2.N, cond2_1 (grid2.coords t) ↔ t.val % 20 = 19)

theorem liveAt2 : ∀ w : Fin cfg2.W, w.val < 6 → ∀ t : Fin cfg2.N, cfg2.idle w (grid2.coords t) = false := by decide +kernel

theorem idleAt2_6 : ∀ t : Fin cfg2.N, ¬cond2_1 (grid2.coords t) → cfg2.idle 6 (grid2.coords t) = true := by decide +kernel

theorem noFlush2_6 : ∀ t : Fin cfg2.N, ¬cond2_1 (grid2.coords t) → (cfg2.win 6).flush t = false := by decide +kernel

theorem liveAt2_6 : ∀ t : Fin cfg2.N, cond2_1 (grid2.coords t) → cfg2.idle 6 (grid2.coords t) = false := by decide +kernel

def sum2 (x0 x1 : Vec F S5000x128 .f32) (x2 x3 : Vec F S128x128 .f32) (x4 : Vec F S1x128 .f32) (s : Vec F S1x128 .f32) : Vec F S1x128 .f32 :=
  k2_pay5 x0 x1 x2 x3 x4 s

def sq2 (x0 x1 : Vec F S5000x128 .f32) (x2 x3 : Vec F S128x128 .f32) (x4 : Vec F S1x128 .f32) (q : Vec F S1x128 .f32) : Vec F S1x128 .f32 :=
  k2_pay1 (k2_pay4 x0 x1 x2 x3 x4) q

def out2_5 (x0 x1 : Vec F S5000x128 .f32) (x2 x3 : Vec F S128x128 .f32) (x4 : Vec F S1x128 .f32) : Vec F S5000x128 .f32 :=
  View.canon [⟨r0_big, k2_pay4 (View.ld x0 r0_big) (View.ld x1 r0_big) (View.ld x2 r0_mat) (View.ld x3 r0_mat) (View.ld x4 r0_row)⟩]

def out2_6 (s q : Vec F S1x128 .f32) : Vec F S2x128 .f32 :=
  View.canon [⟨r0_st1, q⟩, ⟨r0_st0, s⟩]

theorem out2_5_eq (x0 x1 : Vec F S5000x128 .f32) (x2 x3 : Vec F S128x128 .f32) (x4 : Vec F S1x128 .f32) :
    out2_5 x0 x1 x2 x3 x4 = k2_pay4 x0 x1 x2 x3 x4 := by
  unfold out2_5
  rw [View.canon_unit_zero (S := S5000x128) zeros0]
  rw [View.ld_unit_zero (S := S5000x128) zeros0, View.ld_unit_zero (S := S5000x128) zeros0, View.ld_unit_zero (S := S128x128) zeros0,
    View.ld_unit_zero (S := S128x128) zeros0, View.ld_unit_zero (S := S1x128) zeros0]

set_option maxHeartbeats 1000000 in
/-- The statistics kernel on any whole memrefs: the inputs stay, the result block is out2_5 of them, the two running rows restart at the first point and go on otherwise, and the last point writes them out. -/
theorem sound_kernel2 (c : Dev nD) (E : Set ℕ) (i : grid2.Coords) (hc : cond2_0 i → ¬cond2_1 i)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S2x128 .f32) (harg7 : arg7.IsWhole) (arg8 : Memref sig .tc .vmem S1x128 .f32) (harg8 : arg8.IsWhole)
    (arg9 : Memref sig .tc .vmem S1x128 .f32) (harg9 : arg9.IsWhole)
    (x0 x1 : Vec F S5000x128 .f32) (x2 x3 : Vec F S128x128 .f32) (x4 : Vec F S1x128 .f32) (d7 : Vec F S2x128 .f32) (s q : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare d7
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out2_5 x0 x1 x2 x3 x4)
            ∗ owns (c : Thread nD τ) arg7 fullShare (if cond2_1 i then out2_6 (sum2 x0 x1 x2 x3 x4 s) (sq2 x0 x1 x2 x3 x4 q) else d7)
            ∗ owns (c : Thread nD τ) arg8 fullShare (sum2 x0 x1 x2 x3 x4 (if cond2_0 i then k2_pay2 else s))
            ∗ owns (c : Thread nD τ) arg9 fullShare (sq2 x0 x1 x2 x3 x4 (if cond2_0 i then k2_pay3 else q))) -∗ K ⟨⟩))
      ⊢ wp frame (wpE (defs₀ (F := F)) Variants.none c none) E
          (cc2__combine_relu_stats_kernel i arg1 harg1 arg2 harg2 arg3 harg3 arg4 harg4 arg5 harg5 arg6 harg6 arg7 harg7 arg8 harg8 arg9 harg9) K := by
  simp only [cc2__combine_relu_stats_kernel_eq_skeleton, k2_part1_eq_skeleton]; unfold cc2__combine_relu_stats_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, ⟨%f8, %hf8, H8⟩, ⟨%f9, %hf9, H9⟩, Hk⟩
  subst hf0 hf1 hf2 hf3 hf4 hf7 hf8 hf9
  by_cases hc0 : cond2_0 i
  · have hc1 := hc hc0
    rewrite [if_pos hc0, if_pos hc0, if_neg hc1]
    sl_exec (disch := first | exact hc0 | exact hc1)
    sl_step
    iapply Hk
    isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    isplitl [H5]; · iexists _; iframe H5; ipureintro; exact View.read_writes_eq_canon _ _ _ (cover0_5 _)
    isplitl [H7]; · iexists f7; iframe H7; ipureintro; rfl
    isplitl [H8]
    · iexists _; iframe H8; ipureintro
      sl_unfold_run_names
      rw [read_row0]; unfold sum2
      rw [View.readCov_cons_toLoadRect, readAt_big0, readAt_big0, readAt_mat0, readAt_mat0, readAt_row0]
    iexists _; iframe H9; ipureintro
    sl_unfold_run_names
    rw [read_row0]; unfold sq2
    rw [View.readCov_cons_toLoadRect, readAt_big0, readAt_big0, readAt_mat0, readAt_mat0, readAt_row0]
  rewrite [if_neg hc0, if_neg hc0]
  by_cases hc1 : cond2_1 i
  · rewrite [if_pos hc1]
    sl_exec (disch := first | exact hc0 | exact hc1)
    sl_step
    iapply Hk
    isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    isplitl [H5]; · iexists _; iframe H5; ipureintro; exact View.read_writes_eq_canon _ _ _ (cover0_5 _)
    isplitl [H7]
    · iexists _; iframe H7; ipureintro
      sl_unfold_run_names
      rw [View.read_writes_eq_canon _ _ _ (cover0_6 _ _)]
      unfold out2_6 sum2 sq2
      rw [View.readCov_cons_toLoadRect, View.readCov_cons_toLoadRect, readAt_big0, readAt_big0, readAt_mat0, readAt_mat0, readAt_row0, readAt_row0, readAt_row0]
    isplitl [H8]
    · iexists _; iframe H8; ipureintro
      sl_unfold_run_names
      rw [read_row0]; unfold sum2
      rw [readAt_big0, readAt_big0, readAt_mat0, readAt_mat0, readAt_row0, readAt_row0]
    iexists _; iframe H9; ipureintro
    sl_unfold_run_names
    rw [read_row0]; unfold sq2
    rw [readAt_big0, readAt_big0, readAt_mat0, readAt_mat0, readAt_row0, readAt_row0]
  rewrite [if_neg hc1]
  sl_exec (disch := first | exact hc0 | exact hc1)
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists _; iframe H5; ipureintro; exact View.read_writes_eq_canon _ _ _ (cover0_5 _)
  isplitl [H7]; · iexists f7; iframe H7; ipureintro; rfl
  isplitl [H8]
  · iexists _; iframe H8; ipureintro
    sl_unfold_run_names
    rw [read_row0]; unfold sum2
    rw [readAt_big0, readAt_big0, readAt_mat0, readAt_mat0, readAt_row0, readAt_row0]
  iexists _; iframe H9; ipureintro
  sl_unfold_run_names
  rw [read_row0]; unfold sq2
  rw [readAt_big0, readAt_big0, readAt_mat0, readAt_mat0, readAt_row0, readAt_row0]

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accAt2 (c : Dev nD) : (n : ℕ) → n < cfg2.N → Vec F S1x128 .f32 × Vec F S1x128 .f32
  | 0, hn => (sum2 (iblk2 V c 0 ⟨0, hn⟩) (iblk2 V c 1 ⟨0, hn⟩) (iblk2 V c 2 ⟨0, hn⟩) (iblk2 V c 3 ⟨0, hn⟩) (iblk2 V c 4 ⟨0, hn⟩) k2_pay2, sq2 (iblk2 V c 0 ⟨0, hn⟩) (iblk2 V c 1 ⟨0, hn⟩) (iblk2 V c 2 ⟨0, hn⟩) (iblk2 V c 3 ⟨0, hn⟩) (iblk2 V c 4 ⟨0, hn⟩) k2_pay3)
  | n + 1, hn => (sum2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).1,
      sq2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).2)

theorem accAt2_zero (c : Dev nD) (hn : 0 < cfg2.N) :
    accAt2 V c 0 hn = (sum2 (iblk2 V c 0 ⟨0, hn⟩) (iblk2 V c 1 ⟨0, hn⟩) (iblk2 V c 2 ⟨0, hn⟩) (iblk2 V c 3 ⟨0, hn⟩) (iblk2 V c 4 ⟨0, hn⟩) k2_pay2, sq2 (iblk2 V c 0 ⟨0, hn⟩) (iblk2 V c 1 ⟨0, hn⟩) (iblk2 V c 2 ⟨0, hn⟩) (iblk2 V c 3 ⟨0, hn⟩) (iblk2 V c 4 ⟨0, hn⟩) k2_pay3) := rfl

theorem accAt2_succ (c : Dev nD) (n : ℕ) (hn : n + 1 < cfg2.N) :
    accAt2 V c (n + 1) hn = (sum2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 V c n (Nat.lt_of_succ_lt hn)).1,
      sq2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 V c n (Nat.lt_of_succ_lt hn)).2) := rfl

theorem accAt2_first (c : Dev nD) (t : Fin cfg2.N) (hz : t.val = 0) :
    accAt2 V c t.val t.isLt = (sum2 (iblk2 V c 0 t) (iblk2 V c 1 t) (iblk2 V c 2 t) (iblk2 V c 3 t) (iblk2 V c 4 t) k2_pay2, sq2 (iblk2 V c 0 t) (iblk2 V c 1 t) (iblk2 V c 2 t) (iblk2 V c 3 t) (iblk2 V c 4 t) k2_pay3) := by
  obtain ⟨n, hn⟩ := t
  cases n with
  | zero => rfl
  | succ n => exact absurd hz (Nat.succ_ne_zero n)

theorem accAt2_pos (c : Dev nD) (t : Fin cfg2.N) (hz : t.val ≠ 0) :
    accAt2 V c t.val t.isLt = (sum2 (iblk2 V c 0 t) (iblk2 V c 1 t) (iblk2 V c 2 t) (iblk2 V c 3 t) (iblk2 V c 4 t) (accAt2 V c (t.val - 1) (Nat.lt_of_le_of_lt (Nat.sub_le _ _) t.isLt)).1,
      sq2 (iblk2 V c 0 t) (iblk2 V c 1 t) (iblk2 V c 2 t) (iblk2 V c 3 t) (iblk2 V c 4 t) (accAt2 V c (t.val - 1) (Nat.lt_of_le_of_lt (Nat.sub_le _ _) t.isLt)).2) := by
  obtain ⟨n, hn⟩ := t
  cases n with
  | zero => exact absurd rfl hz
  | succ n => rfl

abbrev scM2_0 : Memref sig .tc .vmem S1x128 .f32 := Memref.whole cc2_scratch0
abbrev scM2_1 : Memref sig .tc .vmem S1x128 .f32 := Memref.whole cc2_scratch1

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

def PhiAcc2 (c : Dev nD) (a : Vec F S1x128 .f32 × Vec F S1x128 .f32) : sProp 𝕄 :=
  iprop(iprop(iprop(owns (c : Thread nD τ) scM2_0 fullShare a.1 ∗ owns (c : Thread nD τ) scM2_1 fullShare a.2)
      ∗ Pipeline.scopedRestBut (Ix := Unit) (Name := ℕ) (U := UR sig nD τ) (Lvl := ℕ) (Val := Elt F) spec2 c [cc2_scratch0, cc2_scratch1])
      ∗ (∃ r, prngReg c r))

/-- The region's invariant before point n: the scratch rows hold the running sums of the points before it. -/
def PhiS2 (c : Dev nD) : (n : ℕ) → n ≤ cfg2.N → sProp 𝕄
  | 0, _ => Pipeline.ΦA spec2 c
  | n + 1, hn => PhiAcc2 c (accAt2 V c n hn)

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) : PhiS2 V c n h = PhiAcc2 c (accAt2 V c (n - 1) (by omega)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (accAt2 V c t.val t.isLt).1 (accAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) :
    (dat2 V c).after 6 t = out2_6 (accAt2 V c t.val t.isLt).1 (accAt2 V c t.val t.isLt).2 := by dsimp only [dat2]

theorem lt19_2 : 19 < cfg2.N := by rw [show cfg2.N = 20 from N_2]; omega

theorem after2_6_last (c : Dev nD) (t : Fin cfg2.N) (h : t.val = 19) :
    (dat2 V c).after 6 t = out2_6 (accAt2 V c 19 lt19_2).1 (accAt2 V c 19 lt19_2).2 := by
  rw [after2_6]
  obtain ⟨n, hn⟩ := t
  dsimp only at h
  subst h
  rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem leaves2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiAcc2 c (accAt2 V c t.val t.isLt) from rfl]; unfold PhiAcc2
  rw [leaves2 V c 0 t (liveAt2 0 (by decide) t), leaves2 V c 1 t (liveAt2 1 (by decide) t), leaves2 V c 2 t (liveAt2 2 (by decide) t),
    leaves2 V c 3 t (liveAt2 3 (by decide) t), leaves2 V c 4 t (liveAt2 4 (by decide) t), leaves2 V c 5 t (liveAt2 5 (by decide) t),
    after2_0, after2_1, after2_2, after2_3, after2_4, after2_5]
  have hN : t.val < 20 := lt_of_lt_of_eq t.isLt (show cfg2.N = 20 from N_2)
  by_cases h0 : t.val % 20 = 0
  · have hz : t.val = 0 := by omega
    have c0 : cond2_0 (grid2.coords t) := (hcond2_0 t).mpr h0
    have c1 : ¬cond2_1 (grid2.coords t) := fun h => by have := (hcond2_1 t).mp h; omega
    rw [Dat.leavesExact_idle (dat2 V c) 6 t (idleAt2_6 t c1) (noFlush2_6 t c1)]
    rw [accAt2_first V c t hz]; dsimp only
    rw [PhiS2_castSucc V c t, PhiS2_zero V c _ _ hz, PhiA2_eq]
    iintro ⟨⟨⟨⟨⟨%s, HS0⟩, %q, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2 c Set.univ (grid2.coords t) (fun _ => c1) _ _ _ _ _ _ _ _ _ _ _ _ _ _ _ _ _ _
      (iblk2 V c 0 t) (iblk2 V c 1 t) (iblk2 V c 2 t) (iblk2 V c 3 t) (iblk2 V c 4 t) _ _ _ _)
    iframe
    isplitl [H5]; · iexists _; iexact H5
    rewrite [if_pos c0, if_pos c0, if_neg c1]
    iintro ⟨H0, H1, H2, H3, H4, H5, H6, HS0, HS1⟩
    iframe
    iexists _; iexact H6
  · have hz : t.val ≠ 0 := by omega
    have c0 : ¬cond2_0 (grid2.coords t) := fun h => h0 ((hcond2_0 t).mp h)
    rw [accAt2_pos V c t hz]; dsimp only
    rw [PhiS2_castSucc V c t, PhiS2_pos V c _ _ hz]; unfold PhiAcc2
    by_cases h1 : t.val % 20 = 19
    · have c1 : cond2_1 (grid2.coords t) := (hcond2_1 t).mpr h1
      rw [leaves2 V c 6 t (liveAt2_6 t c1), after2_6]
      rw [accAt2_pos V c t hz]; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2 c Set.univ (grid2.coords t) (fun a => (c0 a).elim) _ _ _ _ _ _ _ _ _ _ _ _ _ _ _ _ _ _
      (iblk2 V c 0 t) (iblk2 V c 1 t) (iblk2 V c 2 t) (iblk2 V c 3 t) (iblk2 V c 4 t) _ _ _ _)
      iframe
      isplitl [H5]; · iexists _; iexact H5
      rewrite [if_neg c0, if_neg c0, if_pos c1]
      iintro ⟨H0, H1, H2, H3, H4, H5, H6, HS0, HS1⟩
      iframe
    · have c1 : ¬cond2_1 (grid2.coords t) := fun h => h1 ((hcond2_1 t).mp h)
      rw [Dat.leavesExact_idle (dat2 V c) 6 t (idleAt2_6 t c1) (noFlush2_6 t c1)]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2 c Set.univ (grid2.coords t) (fun a => (c0 a).elim) _ _ _ _ _ _ _ _ _ _ _ _ _ _ _ _ _ _
      (iblk2 V c 0 t) (iblk2 V c 1 t) (iblk2 V c 2 t) (iblk2 V c 3 t) (iblk2 V c 4 t) _ _ _ _)
      iframe
      isplitl [H5]; · iexists _; iexact H5
      rewrite [if_neg c0, if_neg c0, if_neg c1]
      iintro ⟨H0, H1, H2, H3, H4, H5, H6, HS0, HS1⟩
      iframe
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]; unfold PhiAcc2
  iintro ⟨⟨⟨HS0, HS1⟩, Hrest⟩, Hg⟩
  iframe Hrest Hg
  isplitl [HS0]; · iexists _; iexact HS0
  iexists _; iexact HS1

theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Reg

end
-- ==== Proof.KI.Stats4.lean ====
import proofs.«418208_j66958540145299_1_alg».proof.Proof.KI.Stats2

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.cmpi .eq (BitVec.ofNat 32 (i 0).val) 0#32)) 0#32) = 1#1

theorem hcond4_0 : ∀ t : Fin cfg4.N, cond4_0 (grid4.coords t) ↔ t.val % 20 = 0 :=
  (by decide +kernel : ∀ t : Fin grid4.N, cond4_0 (grid4.coords t) ↔ t.val % 20 = 0)

abbrev cond4_1 (i : grid4.Coords) : Prop := k4_cond2 i = 1#1

theorem hcond4_1 : ∀ t : Fin cfg4.N, cond4_1 (grid4.coords t) ↔ t.val % 20 = 19 :=
  (by decide +kernel : ∀ t : Fin grid4.N, cond4_1 (grid4.coords t) ↔ t.val % 20 = 19)

theorem liveAt4 : ∀ w : Fin cfg4.W, w.val < 6 → ∀ t : Fin cfg4.N, cfg4.idle w (grid4.coords t) = false := by decide +kernel

theorem idleAt4_6 : ∀ t : Fin cfg4.N, ¬cond4_1 (grid4.coords t) → cfg4.idle 6 (grid4.coords t) = true := by decide +kernel

theorem noFlush4_6 : ∀ t : Fin cfg4.N, ¬cond4_1 (grid4.coords t) → (cfg4.win 6).flush t = false := by decide +kernel

theorem liveAt4_6 : ∀ t : Fin cfg4.N, cond4_1 (grid4.coords t) → cfg4.idle 6 (grid4.coords t) = false := by decide +kernel

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def accAt4 (c : Dev nD) : (n : ℕ) → n < cfg4.N → Vec F S1x128 .f32 × Vec F S1x128 .f32
  | 0, hn => (sum2 (iblk4 V c 0 ⟨0, hn⟩) (iblk4 V c 1 ⟨0, hn⟩) (iblk4 V c 2 ⟨0, hn⟩) (iblk4 V c 3 ⟨0, hn⟩) (iblk4 V c 4 ⟨0, hn⟩) k2_pay2, sq2 (iblk4 V c 0 ⟨0, hn⟩) (iblk4 V c 1 ⟨0, hn⟩) (iblk4 V c 2 ⟨0, hn⟩) (iblk4 V c 3 ⟨0, hn⟩) (iblk4 V c 4 ⟨0, hn⟩) k2_pay3)
  | n + 1, hn => (sum2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).1,
      sq2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).2)

theorem accAt4_zero (c : Dev nD) (hn : 0 < cfg4.N) :
    accAt4 V c 0 hn = (sum2 (iblk4 V c 0 ⟨0, hn⟩) (iblk4 V c 1 ⟨0, hn⟩) (iblk4 V c 2 ⟨0, hn⟩) (iblk4 V c 3 ⟨0, hn⟩) (iblk4 V c 4 ⟨0, hn⟩) k2_pay2, sq2 (iblk4 V c 0 ⟨0, hn⟩) (iblk4 V c 1 ⟨0, hn⟩) (iblk4 V c 2 ⟨0, hn⟩) (iblk4 V c 3 ⟨0, hn⟩) (iblk4 V c 4 ⟨0, hn⟩) k2_pay3) := rfl

theorem accAt4_succ (c : Dev nD) (n : ℕ) (hn : n + 1 < cfg4.N) :
    accAt4 V c (n + 1) hn = (sum2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 V c n (Nat.lt_of_succ_lt hn)).1,
      sq2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 V c n (Nat.lt_of_succ_lt hn)).2) := rfl

theorem accAt4_first (c : Dev nD) (t : Fin cfg4.N) (hz : t.val = 0) :
    accAt4 V c t.val t.isLt = (sum2 (iblk4 V c 0 t) (iblk4 V c 1 t) (iblk4 V c 2 t) (iblk4 V c 3 t) (iblk4 V c 4 t) k2_pay2, sq2 (iblk4 V c 0 t) (iblk4 V c 1 t) (iblk4 V c 2 t) (iblk4 V c 3 t) (iblk4 V c 4 t) k2_pay3) := by
  obtain ⟨n, hn⟩ := t
  cases n with
  | zero => rfl
  | succ n => exact absurd hz (Nat.succ_ne_zero n)

theorem accAt4_pos (c : Dev nD) (t : Fin cfg4.N) (hz : t.val ≠ 0) :
    accAt4 V c t.val t.isLt = (sum2 (iblk4 V c 0 t) (iblk4 V c 1 t) (iblk4 V c 2 t) (iblk4 V c 3 t) (iblk4 V c 4 t) (accAt4 V c (t.val - 1) (Nat.lt_of_le_of_lt (Nat.sub_le _ _) t.isLt)).1,
      sq2 (iblk4 V c 0 t) (iblk4 V c 1 t) (iblk4 V c 2 t) (iblk4 V c 3 t) (iblk4 V c 4 t) (accAt4 V c (t.val - 1) (Nat.lt_of_le_of_lt (Nat.sub_le _ _) t.isLt)).2) := by
  obtain ⟨n, hn⟩ := t
  cases n with
  | zero => exact absurd rfl hz
  | succ n => rfl

abbrev scM4_0 : Memref sig .tc .vmem S1x128 .f32 := Memref.whole cc4_scratch0
abbrev scM4_1 : Memref sig .tc .vmem S1x128 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

def PhiAcc4 (c : Dev nD) (a : Vec F S1x128 .f32 × Vec F S1x128 .f32) : sProp 𝕄 :=
  iprop(iprop(iprop(owns (c : Thread nD τ) scM4_0 fullShare a.1 ∗ owns (c : Thread nD τ) scM4_1 fullShare a.2)
      ∗ Pipeline.scopedRestBut (Ix := Unit) (Name := ℕ) (U := UR sig nD τ) (Lvl := ℕ) (Val := Elt F) spec4 c [cc4_scratch0, cc4_scratch1])
      ∗ (∃ r, prngReg c r))

/-- The region's invariant before point n: the scratch rows hold the running sums of the points before it. -/
def PhiS4 (c : Dev nD) : (n : ℕ) → n ≤ cfg4.N → sProp 𝕄
  | 0, _ => Pipeline.ΦA spec4 c
  | n + 1, hn => PhiAcc4 c (accAt4 V c n hn)

theorem PhiS4_zero (c : Dev nD) (n : ℕ) (h : n ≤ cfg4.N) (hz : n = 0) : PhiS4 V c n h = Pipeline.ΦA spec4 c := by
  subst hz; rfl

theorem PhiS4_pos (c : Dev nD) (n : ℕ) (h : n ≤ cfg4.N) (hz : n ≠ 0) : PhiS4 V c n h = PhiAcc4 c (accAt4 V c (n - 1) (by omega)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out2_5 (iblk4 V c 0 t) (iblk4 V c 1 t) (iblk4 V c 2 t) (iblk4 V c 3 t) (iblk4 V c 4 t)
    | ⟨6, _⟩ => out2_6 (accAt4 V c t.val t.isLt).1 (accAt4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out2_5 (iblk4 V c 0 t) (iblk4 V c 1 t) (iblk4 V c 2 t) (iblk4 V c 3 t) (iblk4 V c 4 t) := by dsimp only [dat4]
theorem after4_6 (c : Dev nD) (t : Fin cfg4.N) :
    (dat4 V c).after 6 t = out2_6 (accAt4 V c t.val t.isLt).1 (accAt4 V c t.val t.isLt).2 := by dsimp only [dat4]

theorem lt19_4 : 19 < cfg4.N := by rw [show cfg4.N = 20 from N_4]; omega

theorem after4_6_last (c : Dev nD) (t : Fin cfg4.N) (h : t.val = 19) :
    (dat4 V c).after 6 t = out2_6 (accAt4 V c 19 lt19_4).1 (accAt4 V c 19 lt19_4).2 := by
  rw [after4_6]
  obtain ⟨n, hn⟩ := t
  dsimp only at h
  subst h
  rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d

theorem kernel4_eq : @cc4__combine_relu_stats_kernel F _ = @cc2__combine_relu_stats_kernel F _ := rfl

theorem leaves4 (c : Dev nD) (w : Fin cfg4.W) (t : Fin cfg4.N) (h : cfg4.idle w (grid4.coords t) = false) :
    (dat4 V c).leavesExact w t = owns (c : Thread nD τ) ((cfg4.win w).stage (cfg4.slots t w)) fullShare ((dat4 V c).after w t) := by
  unfold Dat.leavesExact; rw [h]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [kernel4_eq]
  simp only [before4_0, before4_1, before4_2, before4_3, before4_4]
  rw [show (dat4 V c).owesAt () t.succ = (dat4 V c).owesAt () t.castSucc from rfl]
  rw [show (dat4 V c).Φ t.succ = PhiAcc4 c (accAt4 V c t.val t.isLt) from rfl]; unfold PhiAcc4
  rw [leaves4 V c 0 t (liveAt4 0 (by decide) t), leaves4 V c 1 t (liveAt4 1 (by decide) t), leaves4 V c 2 t (liveAt4 2 (by decide) t),
    leaves4 V c 3 t (liveAt4 3 (by decide) t), leaves4 V c 4 t (liveAt4 4 (by decide) t), leaves4 V c 5 t (liveAt4 5 (by decide) t),
    after4_0, after4_1, after4_2, after4_3, after4_4, after4_5]
  have hN : t.val < 20 := lt_of_lt_of_eq t.isLt (show cfg4.N = 20 from N_4)
  by_cases h0 : t.val % 20 = 0
  · have hz : t.val = 0 := by omega
    have c0 : cond2_0 (grid4.coords t) := (hcond4_0 t).mpr h0
    have c1 : ¬cond2_1 (grid4.coords t) := fun h => by have := (hcond4_1 t).mp h; omega
    rw [Dat.leavesExact_idle (dat4 V c) 6 t (idleAt4_6 t c1) (noFlush4_6 t c1)]
    rw [accAt4_first V c t hz]; dsimp only
    rw [PhiS4_castSucc V c t, PhiS4_zero V c _ _ hz, PhiA4_eq]
    iintro ⟨⟨⟨⟨⟨%s, HS0⟩, %q, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2 c Set.univ (grid4.coords t) (fun _ => c1) _ _ _ _ _ _ _ _ _ _ _ _ _ _ _ _ _ _
      (iblk4 V c 0 t) (iblk4 V c 1 t) (iblk4 V c 2 t) (iblk4 V c 3 t) (iblk4 V c 4 t) _ _ _ _)
    iframe
    isplitl [H5]; · iexists _; iexact H5
    rewrite [if_pos c0, if_pos c0, if_neg c1]
    iintro ⟨H0, H1, H2, H3, H4, H5, H6, HS0, HS1⟩
    iframe
    iexists _; iexact H6
  · have hz : t.val ≠ 0 := by omega
    have c0 : ¬cond2_0 (grid4.coords t) := fun h => h0 ((hcond4_0 t).mp h)
    rw [accAt4_pos V c t hz]; dsimp only
    rw [PhiS4_castSucc V c t, PhiS4_pos V c _ _ hz]; unfold PhiAcc4
    by_cases h1 : t.val % 20 = 19
    · have c1 : cond2_1 (grid4.coords t) := (hcond4_1 t).mpr h1
      rw [leaves4 V c 6 t (liveAt4_6 t c1), after4_6]
      rw [accAt4_pos V c t hz]; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2 c Set.univ (grid4.coords t) (fun a => (c0 a).elim) _ _ _ _ _ _ _ _ _ _ _ _ _ _ _ _ _ _
      (iblk4 V c 0 t) (iblk4 V c 1 t) (iblk4 V c 2 t) (iblk4 V c 3 t) (iblk4 V c 4 t) _ _ _ _)
      iframe
      isplitl [H5]; · iexists _; iexact H5
      rewrite [if_neg c0, if_neg c0, if_pos c1]
      iintro ⟨H0, H1, H2, H3, H4, H5, H6, HS0, HS1⟩
      iframe
    · have c1 : ¬cond2_1 (grid4.coords t) := fun h => h1 ((hcond4_1 t).mp h)
      rw [Dat.leavesExact_idle (dat4 V c) 6 t (idleAt4_6 t c1) (noFlush4_6 t c1)]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2 c Set.univ (grid4.coords t) (fun a => (c0 a).elim) _ _ _ _ _ _ _ _ _ _ _ _ _ _ _ _ _ _
      (iblk4 V c 0 t) (iblk4 V c 1 t) (iblk4 V c 2 t) (iblk4 V c 3 t) (iblk4 V c 4 t) _ _ _ _)
      iframe
      isplitl [H5]; · iexists _; iexact H5
      rewrite [if_neg c0, if_neg c0, if_neg c1]
      iintro ⟨H0, H1, H2, H3, H4, H5, H6, HS0, HS1⟩
      iframe
      iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]; unfold PhiAcc4
  iintro ⟨⟨⟨HS0, HS1⟩, Hrest⟩, Hg⟩
  iframe Hrest Hg
  isplitl [HS0]; · iexists _; iexact HS0
  iexists _; iexact HS1

theorem hout4 (c : Dev nD) : (dat4 V c).Φ (Fin.last cfg4.N) ⊢ Pipeline.ΦA spec4 c :=
  Phi_out4 V c _ (by rw [Fin.val_last]; have : cfg4.N = 20 := N_4; omega)

end Cert.KernelIdeal.Reg

end
-- ==== Proof.KI.Main.lean ====
import proofs.«418208_j66958540145299_1_alg».proof.Proof.KI.Affine1
import proofs.«418208_j66958540145299_1_alg».proof.Proof.KI.Affine3
import proofs.«418208_j66958540145299_1_alg».proof.Proof.KI.Affine5
import proofs.«418208_j66958540145299_1_alg».proof.Proof.KI.Sigmoid6
import proofs.«418208_j66958540145299_1_alg».proof.Proof.KI.Stats0
import proofs.«418208_j66958540145299_1_alg».proof.Proof.KI.Stats2
import proofs.«418208_j66958540145299_1_alg».proof.Proof.KI.Stats4
import proofs.«418208_j66958540145299_1_alg».proof.Proof.Gen.KernelIdeal.Regions
import Idealize.ShloMosaic.Lib.Pipeline.RegionsLoop
import Idealize.ShloMosaic.Lib.Pipeline.FrameSuffix
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's contents read at the TensorCore's references. -/
abbrev atTc (W : Dev nD → Valuation τ sig (Elt F)) (c : Dev nD) (b : Ref sig .tc) : Buf (Elt F) ((c : Thread nD τ).loc b) := W c b

/-- The contents after a host stretch. -/
abbrev host (ops : List (HloOp τ sig (Elt F))) (W : Dev nD → Valuation τ sig (Elt F)) : Dev nD → Valuation τ sig (Elt F) :=
  fun c => StableHlo.after ops (W c)

/-- What a region entered at W leaves: its arrays at the last contents of its proof data, every other buffer as entered. -/
abbrev leaves {cfg : Cfg sig Λ₀} (W : Dev nD → Valuation τ sig (Elt F)) (d : (c : Dev nD) → Dat τ (Elt F) Unit ℕ (UR sig nD τ) ℕ cfg c) :
    Dev nD → Valuation τ sig (Elt F) :=
  fun c => Pipeline.withArrays cfg.spec c (W c) fun w => (d c).arrAt w cfg.N

theorem leaves_arr {cfg : Cfg sig Λ₀} (hinj : Function.Injective (Pipeline.arrRef cfg.spec)) (W : Dev nD → Valuation τ sig (Elt F))
    (d : (c : Dev nD) → Dat τ (Elt F) Unit ℕ (UR sig nD τ) ℕ cfg c) (c : Dev nD) (w : Fin cfg.W) :
    leaves W d c (Proc.devRef .tc (Pipeline.arrRef cfg.spec w)) = (d c).arrAt w cfg.N :=
  Pipeline.withArrays_arr cfg.spec hinj c _ _ w
theorem leaves_of_ne {cfg : Cfg sig Λ₀} (W : Dev nD → Valuation τ sig (Elt F)) (d : (c : Dev nD) → Dat τ (Elt F) Unit ℕ (UR sig nD τ) ℕ cfg c)
    (c : Dev nD) (b : Ref sig .tc) (hb : ∀ w, Pipeline.arrRef cfg.spec w ≠ b) : leaves W d c (Proc.devRef .tc b) = W c (Proc.devRef .tc b) :=
  Pipeline.withArrays_of_ne cfg.spec c _ _ b hb

/-- The buffers' contents at the 22 boundaries between the items of @main, from the launch memory on. -/
abbrev W0 : Dev nD → Valuation τ sig (Elt F) := fun c b => (s₀ m ρ).mem ((c : Dev nD), b)
abbrev W1 := host hostOps0 (W0 m ρ)
abbrev W2 := host hostOps0_1 (W1 m ρ)
abbrev W3 := host hostOps0_2 (W2 m ρ)
abbrev W4 := host hostOps0_3 (W3 m ρ)
abbrev W5 := host hostOps0_4 (W4 m ρ)
abbrev V5 := atTc (W5 m ρ)
def W6 := leaves (W5 m ρ) (dat0 (V5 m ρ))
abbrev W7 := host hostOps1 (W6 m ρ)
abbrev V7 := atTc (W7 m ρ)
def W8 := leaves (W7 m ρ) (dat1 (V7 m ρ))
abbrev W9 := host hostOps2 (W8 m ρ)
abbrev W10 := host hostOps2_1 (W9 m ρ)
abbrev V10 := atTc (W10 m ρ)
def W11 := leaves (W10 m ρ) (dat2 (V10 m ρ))
abbrev W12 := host hostOps3 (W11 m ρ)
abbrev V12 := atTc (W12 m ρ)
def W13 := leaves (W12 m ρ) (dat3 (V12 m ρ))
abbrev W14 := host hostOps4 (W13 m ρ)
abbrev W15 := host hostOps4_1 (W14 m ρ)
abbrev V15 := atTc (W15 m ρ)
def W16 := leaves (W15 m ρ) (dat4 (V15 m ρ))
abbrev W17 := host hostOps5 (W16 m ρ)
abbrev V17 := atTc (W17 m ρ)
def W18 := leaves (W17 m ρ) (dat5 (V17 m ρ))
abbrev W19 := host hostOps6 (W18 m ρ)
abbrev W20 := host hostOps6_1 (W19 m ρ)
abbrev V20 := atTc (W20 m ρ)
def W21 := leaves (W20 m ρ) (dat6 (V20 m ρ))
theorem W6_arr (c : Dev nD) (w : Fin cfg0.W) :
    W6 m ρ c (Proc.devRef .tc (Pipeline.arrRef spec0 w)) = (dat0 (V5 m ρ) c).arrAt w cfg0.N :=
  leaves_arr launch0.win.arr_inj _ _ c w
theorem W8_arr (c : Dev nD) (w : Fin cfg1.W) :
    W8 m ρ c (Proc.devRef .tc (Pipeline.arrRef spec1 w)) = (dat1 (V7 m ρ) c).arrAt w cfg1.N :=
  leaves_arr launch1.win.arr_inj _ _ c w
theorem W11_arr (c : Dev nD) (w : Fin cfg2.W) :
    W11 m ρ c (Proc.devRef .tc (Pipeline.arrRef spec2 w)) = (dat2 (V10 m ρ) c).arrAt w cfg2.N :=
  leaves_arr launch2.win.arr_inj _ _ c w
theorem W13_arr (c : Dev nD) (w : Fin cfg3.W) :
    W13 m ρ c (Proc.devRef .tc (Pipeline.arrRef spec3 w)) = (dat3 (V12 m ρ) c).arrAt w cfg3.N :=
  leaves_arr launch3.win.arr_inj _ _ c w
theorem W16_arr (c : Dev nD) (w : Fin cfg4.W) :
    W16 m ρ c (Proc.devRef .tc (Pipeline.arrRef spec4 w)) = (dat4 (V15 m ρ) c).arrAt w cfg4.N :=
  leaves_arr launch4.win.arr_inj _ _ c w
theorem W18_arr (c : Dev nD) (w : Fin cfg5.W) :
    W18 m ρ c (Proc.devRef .tc (Pipeline.arrRef spec5 w)) = (dat5 (V17 m ρ) c).arrAt w cfg5.N :=
  leaves_arr launch5.win.arr_inj _ _ c w
theorem W21_arr (c : Dev nD) (w : Fin cfg6.W) :
    W21 m ρ c (Proc.devRef .tc (Pipeline.arrRef spec6 w)) = (dat6 (V20 m ρ) c).arrAt w cfg6.N :=
  leaves_arr launch6.win.arr_inj _ _ c w

def pdats : (p : Fin 7) → (c : Dev nD) → Dat τ (Elt F) Unit ℕ (UR sig nD τ) ℕ (cfgs p) c
  | ⟨0, _⟩ => dat0 (V5 m ρ)
  | ⟨1, _⟩ => dat1 (V7 m ρ)
  | ⟨2, _⟩ => dat2 (V10 m ρ)
  | ⟨3, _⟩ => dat3 (V12 m ρ)
  | ⟨4, _⟩ => dat4 (V15 m ρ)
  | ⟨5, _⟩ => dat5 (V17 m ρ)
  | ⟨6, _⟩ => dat6 (V20 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- The thread state between two items: every unscoped buffer at the contents W. -/
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region p over the thread state, entered at W: its arrays are split out of the unscoped buffers and put back as it leaves them. -/
def regOf (p : Fin 7) (la : Pipeline.LaunchFacts (nD := nD) (τ := τ) cfgs p) (W : Dev nD → Valuation τ sig (Elt F))
    (hbody : ∀ c, BodyObligation (pdats m ρ p c) (defs₀ (F := F)) 𝒱₀ () Set.univ)
    (hin : ∀ c, Pipeline.ΦA (cfgs p).spec c ⊢ (pdats m ρ p c).Φ 0)
    (hout : ∀ c, (pdats m ρ p c).Φ (Fin.last _) ⊢ Pipeline.ΦA (cfgs p).spec c)
    (hq : ∀ c w, (pdats m ρ p c).q w = fullShare := by exact fun _ _ => rfl)
    (howed : ∀ c t, (pdats m ρ p c).owed t = 0 := by exact fun _ _ => rfl)
    (hrec : ∀ c, (pdats m ρ p c).recorded 0 = Set.univ := by exact fun _ => rfl)
    (hA : ∀ c w, (pdats m ρ p c).A w = W c (Pipeline.arrRef (cfgs p).spec w) := by exact fun _ _ => rfl) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre := T W
  post := T (leaves W (pdats m ρ p))
  X c := iprop(∃ r, prngReg c r)
  Y c := iprop(∃ r, prngReg c r)
  Z c := Pipeline.unscopedRest (Ix := Unit) (Name := ℕ) (U := UR sig nD τ) (Lvl := ℕ) (cfgs p).spec c (atTc W c)
  hentry c := by
    have hsplit := Pipeline.arrays_of_unscopedBufs (p := p) (pcfgs (F := F)) adm (pdats m ρ) la.win la.arr_whole c
      ((pdats m ρ p c).share_full (hq c)) (atTc W c) (hA c)
    rw [Pipeline.unscopedBufs_held] at hsplit
    unfold Pipeline.Dat.owesAt Pipeline.owesWithin Pipeline.prefHeld
    rw [howed, show (Finset.univ : Finset (Fin 0)) = ∅ from rfl, BI.bigSep_empty]
    iintro ⟨⟨Hub, Hp, %O, HO⟩, -, -⟩
    ihave ⟨Ha, Hrest⟩ := hsplit $$ Hub
    imodintro
    iframe Ha Hp Hrest
    isplitr; · iempintro
    iexists O; iframe
    ipureintro; exact fun _ _ => Or.inl (hrec c ▸ trivial)
  hin c := by
    refine .trans ?_ (hin c)
    unfold Pipeline.ΦA
    iintro ⟨Hp, -, Hr⟩; isplitl [Hr] <;> iassumption
  hout c := by
    refine (hout c).trans ?_
    unfold Pipeline.ΦA
    rw [Pipeline.ownSems0_none]
    iintro ⟨Hr, Hp⟩; iframe; iempintro
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (hq c))
      (atTc W c) (atTc (leaves W (pdats m ρ p)) c) ((pdats m ρ p c).arrAt · (cfgs p).N)
      (fun w => (leaves_arr la.win.arr_inj W _ c w).symm)
      (fun b hb => leaves_of_ne W _ c b fun w e => hb (Finset.mem_image.mpr ⟨w, Finset.mem_univ _, e⟩))
    rw [Pipeline.unscopedBufs_held] at hjoin
    unfold Pipeline.Dat.owesAt Pipeline.owesWithin
    rw [howed]
    iintro ⟨Ha, ⟨%O, -, HO⟩, HY, Hrest⟩
    imodintro
    isplitl [Ha Hrest]
    · iapply hjoin; iframe
    isplitl [HY]; · iexact HY
    iexists O; iexact HO

def reg0 := regOf m ρ 0 launch0 (W5 m ρ) (body_obligation0 _) (hin0 _) (hout0 _)
def reg1 := regOf m ρ 1 launch1 (W7 m ρ) (body_obligation1 _) (fun _ => .rfl) (fun _ => .rfl)
def reg2 := regOf m ρ 2 launch2 (W10 m ρ) (body_obligation2 _) (hin2 _) (hout2 _)
def reg3 := regOf m ρ 3 launch3 (W12 m ρ) (body_obligation3 _) (fun _ => .rfl) (fun _ => .rfl)
def reg4 := regOf m ρ 4 launch4 (W15 m ρ) (body_obligation4 _) (hin4 _) (hout4 _)
def reg5 := regOf m ρ 5 launch5 (W17 m ρ) (body_obligation5 _) (fun _ => .rfl) (fun _ => .rfl)
def reg6 := regOf m ρ 6 launch6 (W20 m ρ) (body_obligation6 _) (fun _ => .rfl) (fun _ => .rfl)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .host (hseg hostOps2_1 hostOps2_1_sub hostOps2_1_fresh (W9 m ρ)),
    .region (reg2 m ρ),
    .host (hseg hostOps3 hostOps3_sub hostOps3_fresh (W11 m ρ)),
    .region (reg3 m ρ),
    .host (hseg hostOps4 hostOps4_sub hostOps4_fresh (W13 m ρ)),
    .host (hseg hostOps4_1 hostOps4_1_sub hostOps4_1_fresh (W14 m ρ)),
    .region (reg4 m ρ),
    .host (hseg hostOps5 hostOps5_sub hostOps5_fresh (W16 m ρ)),
    .region (reg5 m ρ),
    .host (hseg hostOps6 hostOps6_sub hostOps6_fresh (W18 m ρ)),
    .host (hseg hostOps6_1 hostOps6_1_sub hostOps6_1_fresh (W19 m ρ)),
    .region (reg6 m ρ) ]

theorem main_run (c : Dev nD) : main (F := F) c = Pipeline.Seg.run (segs m ρ) := (main_chain c).trans (by chain_rfl)

set_option backward.isDefEq.respectTransparency.types false in
/-- Every weakly fair execution of @main from memory m terminates, and the final memory holds every unscoped buffer at W21. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := fun c => iprop(StableHlo.held (c : Thread nD τ) (Pipeline.ucRefs τ sig) (W21 m ρ c) ∗ ∃ r, prngReg c r))
    (hch := by repeat' apply And.intro
               all_goals first | exact fun _ => .rfl | exact fun _ => sep_assoc.2)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun _ h => h)

end Cert.KernelIdeal.Reg

end
-- ==== Proof.KI.Kept.lean ====
import proofs.«418208_j66958540145299_1_alg».proof.Proof.KI.Main

noncomputable section

namespace Cert.KernelIdeal.Reg

open Cert.KernelIdeal Cert.KernelIdeal.Gen
open Idealize.ShloMosaic Idealize.ShloMosaic.TcCoe
open Idealize.ShloMosaic.Pipeline (Dat Cfg)

variable {F : FTy → Type} [FloatOps F]

variable (m : (ℓ : Loc nD τ sig) → Buf (Elt F) ℓ) (ρ : Dev nD → PrngReg)

/-- The arrays of a pipeline's output windows. -/
abbrev outRefs (cfg : Cfg sig Λ₀) : List (Ref sig .tc) :=
  ((List.finRange cfg.W).filter fun w => (cfg.win w).isOut).map (Pipeline.arrRef cfg.spec)

/-- A region changes only its results: a buffer it does not stage is untouched, an input array ends as entered. -/
theorem leaves_keeps {cfg : Cfg sig Λ₀} (hinj : Function.Injective (Pipeline.arrRef cfg.spec)) (W : Dev nD → Valuation τ sig (Elt F))
    (d : (c : Dev nD) → Dat τ (Elt F) Unit ℕ (UR sig nD τ) ℕ cfg c) (c : Dev nD)
    (hA : ∀ w, (d c).A w = W c (Proc.devRef .tc (Pipeline.arrRef cfg.spec w))) {b : Ref sig .tc} (hb : b ∉ outRefs cfg) :
    leaves W d c (Proc.devRef .tc b) = W c (Proc.devRef .tc b) := by
  by_cases h : ∃ w, Pipeline.arrRef cfg.spec w = b
  · obtain ⟨w, rfl⟩ := h
    have hin := Bool.eq_false_iff.mpr fun ho => hb (List.mem_map.mpr ⟨w, List.mem_filter.mpr ⟨List.mem_finRange w, ho⟩, rfl⟩)
    exact (leaves_arr hinj W d c w).trans (((d c).arrAt_in w hin _).trans (hA w))
  · exact leaves_of_ne W d c b fun w e => h ⟨w, e⟩

/-- Contents at consecutive boundaries, the last being V₀: each agrees with the one before it off the list beside it. -/
inductive Steps (V₀ : Valuation τ sig (Elt F)) : List (Valuation τ sig (Elt F)) → List (List (Ref sig .tc)) → Prop
  | one : Steps V₀ [V₀] []
  | cons {V V' Vs l ls} : (∀ b ∉ l, V' (Proc.devRef .tc b) = V (Proc.devRef .tc b)) → Steps V₀ (V' :: Vs) ls →
      Steps V₀ (V :: V' :: Vs) (l :: ls)

theorem Steps.step {V₀ : Valuation τ sig (Elt F)} {Vs ls} (h : Steps V₀ Vs ls) {b : Ref sig .tc} :
    ∀ k, b ∉ ls.getD k [] → Vs.getD (k + 1) V₀ (Proc.devRef .tc b) = Vs.getD k V₀ (Proc.devRef .tc b) := by
  induction h with
  | one => intro k _; cases k <;> rfl
  | cons h0 _ ih => intro k hb; cases k with
    | zero => exact h0 b hb
    | succ k => exact ih k hb

/-- A buffer none of the d items after boundary i changes holds at boundary i + d what it held at i. -/
theorem Steps.keeps {V₀ : Valuation τ sig (Elt F)} {Vs ls} (h : Steps V₀ Vs ls) {b : Ref sig .tc} (i d : ℕ)
    (hb : ∀ k < d, b ∉ ls.getD (i + k) []) {V V' : Valuation τ sig (Elt F)} (hV : Vs[i]? = some V) (hV' : Vs[i + d]? = some V') :
    V' (Proc.devRef .tc b) = V (Proc.devRef .tc b) := by
  have key : Vs.getD (i + d) V₀ (Proc.devRef .tc b) = Vs.getD i V₀ (Proc.devRef .tc b) := by
    clear hV'
    induction d with
    | zero => rfl
    | succ d ih => exact (h.step (i + d) (hb d d.lt_succ_self)).trans (ih fun k hk => hb k (Nat.lt_succ_of_lt hk))
  rw [List.getD_eq_getElem?_getD, List.getD_eq_getElem?_getD, hV, hV'] at key
  exact key

/-- The contents at the 22 boundaries of @main, and the buffers the item after each boundary may change. -/
abbrev Ws (c : Dev nD) : List (Valuation τ sig (Elt F)) :=
  [W0 m ρ c, W1 m ρ c, W2 m ρ c, W3 m ρ c, W4 m ρ c, W5 m ρ c, W6 m ρ c, W7 m ρ c, W8 m ρ c, W9 m ρ c, W10 m ρ c, W11 m ρ c, W12 m ρ c, W13 m ρ c, W14 m ρ c, W15 m ρ c, W16 m ρ c, W17 m ρ c, W18 m ρ c, W19 m ρ c, W20 m ρ c, W21 m ρ c]
abbrev writes : List (List (Ref sig .tc)) :=
  [hostOps0_W, hostOps0_1_W, hostOps0_2_W, hostOps0_3_W, hostOps0_4_W, outRefs cfg0, hostOps1_W, outRefs cfg1, hostOps2_W, hostOps2_1_W, outRefs cfg2, hostOps3_W, outRefs cfg3, hostOps4_W, hostOps4_1_W, outRefs cfg4, hostOps5_W, outRefs cfg5, hostOps6_W, hostOps6_1_W, outRefs cfg6]

variable (c : Dev nD)

theorem steps : Steps (W21 m ρ c) (Ws m ρ c) writes :=
  .cons (fun _ => StableHlo.after_of_writes_sub hostOps0 _ hostOps0_writes) <|
  .cons (fun _ => StableHlo.after_of_writes_sub hostOps0_1 _ hostOps0_1_writes) <|
  .cons (fun _ => StableHlo.after_of_writes_sub hostOps0_2 _ hostOps0_2_writes) <|
  .cons (fun _ => StableHlo.after_of_writes_sub hostOps0_3 _ hostOps0_3_writes) <|
  .cons (fun _ => StableHlo.after_of_writes_sub hostOps0_4 _ hostOps0_4_writes) <|
  .cons (fun _ => leaves_keeps launch0.win.arr_inj _ _ c fun _ => rfl) <|
  .cons (fun _ => StableHlo.after_of_writes_sub hostOps1 _ hostOps1_writes) <|
  .cons (fun _ => leaves_keeps launch1.win.arr_inj _ _ c fun _ => rfl) <|
  .cons (fun _ => StableHlo.after_of_writes_sub hostOps2 _ hostOps2_writes) <|
  .cons (fun _ => StableHlo.after_of_writes_sub hostOps2_1 _ hostOps2_1_writes) <|
  .cons (fun _ => leaves_keeps launch2.win.arr_inj _ _ c fun _ => rfl) <|
  .cons (fun _ => StableHlo.after_of_writes_sub hostOps3 _ hostOps3_writes) <|
  .cons (fun _ => leaves_keeps launch3.win.arr_inj _ _ c fun _ => rfl) <|
  .cons (fun _ => StableHlo.after_of_writes_sub hostOps4 _ hostOps4_writes) <|
  .cons (fun _ => StableHlo.after_of_writes_sub hostOps4_1 _ hostOps4_1_writes) <|
  .cons (fun _ => leaves_keeps launch4.win.arr_inj _ _ c fun _ => rfl) <|
  .cons (fun _ => StableHlo.after_of_writes_sub hostOps5 _ hostOps5_writes) <|
  .cons (fun _ => leaves_keeps launch5.win.arr_inj _ _ c fun _ => rfl) <|
  .cons (fun _ => StableHlo.after_of_writes_sub hostOps6 _ hostOps6_writes) <|
  .cons (fun _ => StableHlo.after_of_writes_sub hostOps6_1 _ hostOps6_1_writes) <|
  .cons (fun _ => leaves_keeps launch6.win.arr_inj _ _ c fun _ => rfl) .one

/-- The contents V' at boundary i + d agree with the contents V at boundary i on a buffer none of the d items between changes. -/
theorem keeps {V V' : Valuation τ sig (Elt F)} (b : Ref sig .tc) (i d : ℕ) (hb : ∀ k < d, b ∉ writes.getD (i + k) [])
    (hV : (Ws m ρ c)[i]? = some V := by exact rfl) (hV' : (Ws m ρ c)[i + d]? = some V' := by exact rfl) :
    V' (Proc.devRef .tc b) = V (Proc.devRef .tc b) :=
  (steps m ρ c).keeps i d hb hV hV'

/-- The program's ten arguments: no item writes one, so at the end each holds its launch contents. -/
abbrev argRefs : List (Ref sig .tc) := [main_arg0, main_arg1, main_arg2, main_arg3, main_arg4, main_arg5, main_arg6, main_arg7, main_arg8, main_arg9]
theorem args_kept {s : MemSt nD τ sig (Elt F)} (h : ∀ b ∈ Pipeline.ucRefs τ sig, s.mem ((c : Thread nD τ).1, b) = W21 m ρ c b)
    (b : Ref sig .tc) (hb : b ∈ argRefs) : s.mem ((c : Thread nD τ).loc b) = m ((c : Thread nD τ).loc b) :=
  (h _ (mem_uc b ((by decide : ∀ b ∈ argRefs, ¬ (Proc.devRef .tc b : DevRef τ sig).isScoped) b hb))).trans
    (keeps m ρ c b 0 21 ((by decide : ∀ b ∈ argRefs, ∀ k < 21, b ∉ writes.getD (0 + k) []) b hb) (V := W0 m ρ c))

end Cert.KernelIdeal.Reg

end
-- ==== Proof.Spec.lean ====
import proofs.«418208_j66958540145299_1_alg».proof.Proof.Gen.KernelIdeal
import proofs.«418208_j66958540145299_1_alg».proof.Proof.Gen.ReferenceIdeal
import Idealize.ShloMosaic.PureOps.Ideal
import Idealize.ShloMosaic.Lib.ValueIdx

noncomputable section

namespace Cert.Spec

open Cert.ReferenceIdeal Cert.ReferenceIdeal.Gen Idealize.ShloMosaic Idealize.ShloMosaic.TcCoe Idealize.ShloMosaic.ValueIdx

variable {F : FTy → Type} [FloatOps F]

abbrev Arr (F : FTy → Type) (s : Shape) (e : EltTy) : Type := (⟨s, e⟩ : BufTy).Contents (Elt F)

def srcOf (ei : Arr F S2x1600000 .i32) : Arr F S1600000 .i32 :=
  shapeCast _ (extractStridedSlice S1x1600000 ![0, 0] ei slices_S2x1600000_S1x1600000_0_0) shapeCasts_S1x1600000_S1600000

def dstOf (ei : Arr F S2x1600000 .i32) : Arr F S1600000 .i32 :=
  shapeCast _ (extractStridedSlice S1x1600000 ![1, 0] ei slices_S2x1600000_S1x1600000_1_0) shapeCasts_S1x1600000_S1600000

/-- deg(v): the number of edges into v. -/
def degOf (d : Arr F S1600000 .i32) : Arr F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- The inverse in-degree; 0 at a node no edge enters. -/
def invDegOf (d : Arr F S1600000 .i32) : Arr F S100000x1 .f32 :=
  broadcastInDim S100000x1 ![0] bcast_S100000_S100000x1_0
    (select (cmpf .ogt (degOf d) (broadcastInDim S100000 ![] bcast_S_S100000 (constant S_ .f32 0x00000000#32)))
      (Host.divf (broadcastInDim S100000 ![] bcast_S_S100000 (constant S_ .f32 0x3F800000#32))
        (maximumf (degOf d) (broadcastInDim S100000 ![] bcast_S_S100000 (constant S_ .f32 0x3F800000#32))))
      (broadcastInDim S100000 ![] bcast_S_S100000 (id (constant S_ .f32 0x00000000#32))))

/-- A negative source index is taken modulo the number of nodes. -/
def startIdx (s : Arr F S1600000 .i32) : Arr F S1600000x1 .i32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def rowsR (h : Arr F S100000x128 .f32) (s : Arr F S1600000 .i32) : Arr F S1600000x128 .f32 :=
  Host.gather gather_S100000x128_S1600000x1_S1600000x128_1_0_n_n_0_1_1128 h (startIdx s)

def maskK (s : Arr F S1600000 .i32) : Arr F S1600000 .i1 :=
  Host.reduce IntOp.andi
    (andi (cmpi .sge (startIdx s) (broadcastInDim S1600000x1 ![] Cert.KernelIdeal.Gen.bcast_S_S1600000x1 (constantI S_ 32 0#32)))
      (cmpi .sle (startIdx s) (broadcastInDim S1600000x1 ![0, 1] Cert.KernelIdeal.Gen.bcast_S1x1_S1600000x1_0_1
        (broadcastInDim Cert.KernelIdeal.S1x1 ![1] Cert.KernelIdeal.Gen.bcast_S1_S1x1_1 (constantI Cert.KernelIdeal.S1 32 99999#32)))))
    (constantI S_ 1 1#1) Cert.KernelIdeal.Gen.reducesTo_S1600000x1_S1600000_d1 h_S_

/-- Gathered rows, with a row whose index fails 0 ≤ · ≤ 99999 replaced by a fill value. -/
def rowsK (h : Arr F S100000x128 .f32) (s : Arr F S1600000 .i32) : Arr F S1600000x128 .f32 :=
  select (broadcastInDim S1600000x128 ![0] Cert.KernelIdeal.Gen.bcast_S1600000_S1600000x128_0 (maskK s)) (rowsR h s)
    (broadcastInDim S1600000x128 ![] Cert.KernelIdeal.Gen.bcast_S_S1600000x128 (constant S_ .f32 0x7FC00000#32))

/-- Rows summed by destination, then scaled by the column iv. -/
def sumTo (g : Arr F S1600000x128 .f32) (d : Arr F S1600000 .i32) (iv : Arr F S100000x1 .f32) : Arr F S100000x128 .f32 :=
  mulf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d) g)
    (broadcastInDim S100000x128 ![0, 1] bcast_S100000x1_S100000x128_0_1 iv)

def rowsOf (v : Arr F S128 .f32) : Arr F S100000x128 .f32 :=
  broadcastInDim S100000x128 ![0, 1] bcast_S1x128_S100000x128_0_1 (broadcastInDim S1x128 ![1] bcast_S128_S1x128_1 v)

def linR (a h : Arr F S100000x128 .f32) (wl wr : Arr F S128x128 .f32) (b : Arr F S128 .f32) : Arr F S100000x128 .f32 :=
  maximumf
    (addf (addf (Host.dotGeneral dot_S100000x128_S128x128_S100000x128_1_0_0_1_n_n none a wl)
        (Host.dotGeneral dot_S100000x128_S128x128_S100000x128_1_0_0_1_n_n none h wr)) (rowsOf b))
    (broadcastInDim S100000x128 ![] bcast_S_S100000x128 (constant S_ .f32 0x00000000#32))

def meanR (p : Arr F S100000x128 .f32) : Arr F S128 .f32 :=
  Host.divf (Host.reduceAdd p (constant S_ .f32 0x00000000#32) reducesTo_S100000x128_S128_d0 h_S_)
    (broadcastInDim S128 ![] bcast_S_S128 (constant S_ .f32 0x47C35000#32))

/-- Each column normalised to mean 0 and variance 1, then scaled by gamma and shifted by beta. -/
def bnR (p : Arr F S100000x128 .f32) (g be : Arr F S128 .f32) : Arr F S100000x128 .f32 :=
  addf
    (mulf (mulf (rowsOf g) (subf p (rowsOf (meanR p))))
      (rowsOf (Host.rsqrt (addf
        (Host.divf (Host.reduceAdd (mulf (subf p (rowsOf (meanR p))) (subf p (rowsOf (meanR p)))) (constant S_ .f32 0x00000000#32)
            reducesTo_S100000x128_S128_d0 h_S_) (broadcastInDim S128 ![] bcast_S_S128 (constant S_ .f32 0x47C35000#32)))
        (broadcastInDim S128 ![] bcast_S_S128 (constant S_ .f32 0x3727C5AC#32))))))
    (rowsOf be)

def outR (a h : Arr F S100000x128 .f32) (wl wr : Arr F S128x1 .f32) (b : Arr F S1 .f32) : Arr F S100000x1 .f32 :=
  Host.divf (broadcastInDim S100000x1 ![] bcast_S_S100000x1 (constant S_ .f32 0x3F800000#32))
    (addf (broadcastInDim S100000x1 ![] bcast_S_S100000x1 (constant S_ .f32 0x3F800000#32))
      (Host.exp (Host.negf (addf
        (addf (Host.dotGeneral dot_S100000x128_S128x1_S100000x1_1_0_0_1_n_n none a wl)
          (Host.dotGeneral dot_S100000x128_S128x1_S100000x1_1_0_0_1_n_n none h wr))
        (broadcastInDim S100000x1 ![0, 1] bcast_S1x1_S100000x1_0_1 (broadcastInDim S1x1 ![1] bcast_S1_S1x1_1 b))))))

def mat0 (W : Arr F S3x128x128 .f32) : Arr F S128x128 .f32 :=
  shapeCast _ (extractStridedSlice S1x128x128 ![0, 0, 0] W slices_S3x128x128_S1x128x128_0_0_0) shapeCasts_S1x128x128_S128x128
def mat1 (W : Arr F S3x128x128 .f32) : Arr F S128x128 .f32 :=
  shapeCast _ (extractStridedSlice S1x128x128 ![1, 0, 0] W slices_S3x128x128_S1x128x128_1_0_0) shapeCasts_S1x128x128_S128x128
def mat2 (W : Arr F S3x128x128 .f32) : Arr F S128x128 .f32 :=
  shapeCast _ (extractStridedSlice S1x128x128 ![2, 0, 0] W slices_S3x128x128_S1x128x128_2_0_0) shapeCasts_S1x128x128_S128x128
def row0 (b : Arr F S3x128 .f32) : Arr F S128 .f32 :=
  shapeCast _ (extractStridedSlice S1x128 ![0, 0] b slices_S3x128_S1x128_0_0) shapeCasts_S1x128_S128
def row1 (b : Arr F S3x128 .f32) : Arr F S128 .f32 :=
  shapeCast _ (extractStridedSlice S1x128 ![1, 0] b slices_S3x128_S1x128_1_0) shapeCasts_S1x128_S128
def row2 (b : Arr F S3x128 .f32) : Arr F S128 .f32 :=
  shapeCast _ (extractStridedSlice S1x128 ![2, 0] b slices_S3x128_S1x128_2_0) shapeCasts_S1x128_S128

def meanK (st : Arr F Cert.KernelIdeal.S2x128 .f32) : Arr F S128 .f32 :=
  Host.divf (shapeCast _ (extractStridedSlice S1x128 ![0, 0] st Cert.KernelIdeal.Gen.slices_S2x128_S1x128_0_0) shapeCasts_S1x128_S128)
    (broadcastInDim S128 ![] bcast_S_S128 (constant S_ .f32 0x47C35000#32))

def scaleK (st : Arr F Cert.KernelIdeal.S2x128 .f32) (g : Arr F S128 .f32) : Arr F S128 .f32 :=
  mulf g (Host.rsqrt (addf
    (subf (Host.divf (shapeCast _ (extractStridedSlice S1x128 ![1, 0] st Cert.KernelIdeal.Gen.slices_S2x128_S1x128_1_0) shapeCasts_S1x128_S128)
        (broadcastInDim S128 ![] bcast_S_S128 (constant S_ .f32 0x47C35000#32))) (mulf (meanK st) (meanK st)))
    (broadcastInDim S128 ![] bcast_S_S128 (constant S_ .f32 0x3727C5AC#32))))

def shiftK (st : Arr F Cert.KernelIdeal.S2x128 .f32) (g be : Arr F S128 .f32) : Arr F S128 .f32 :=
  subf be (mulf (meanK st) (scaleK st g))

def asRow (v : Arr F S128 .f32) : Arr F S1x128 .f32 := shapeCast _ v Cert.KernelIdeal.Gen.shapeCasts_S128_S1x128

def linG (a h : Arr Ideal S100000x128 .f32) (wl wr : Arr Ideal S128x128 .f32) (b : Arr Ideal S1x128 .f32) : Arr Ideal S100000x128 .f32 :=
  fun i => max ((∑ k : Fin 128, a (ix2 (i 0) k) * wl (ix2 k (i 1))) + (∑ k : Fin 128, h (ix2 (i 0) k) * wr (ix2 k (i 1)))
      + b (ix2 (0 : Fin 1) (i 1))) (Ideal.ofBits .f32 0x00000000#32)

/-- statsG p (0, c) = Σ_r p (r, c) and statsG p (1, c) = Σ_r p (r, c)². -/
def statsG (p : Arr Ideal S100000x128 .f32) : Arr Ideal Cert.KernelIdeal.S2x128 .f32 :=
  fun i => if (i 0).val = 0 then ∑ r : Fin 100000, p (ix2 r (i 1)) else ∑ r : Fin 100000, p (ix2 r (i 1)) * p (ix2 r (i 1))

def affG (p : Arr Ideal S100000x128 .f32) (sc sh : Arr Ideal S1x128 .f32) : Arr Ideal S100000x128 .f32 :=
  fun i => p i * sc (ix2 (0 : Fin 1) (i 1)) + sh (ix2 (0 : Fin 1) (i 1))

def sigG (a h : Arr Ideal S100000x128 .f32) (wl wr : Arr Ideal S128x1 .f32) (b : Arr Ideal S1x1 .f32) : Arr Ideal S100000x1 .f32 :=
  fun i => Ideal.logistic ((∑ k : Fin 128, a (ix2 (i 0) k) * wl (ix2 k (0 : Fin 1))) + (∑ k : Fin 128, h (ix2 (i 0) k) * wr (ix2 k (0 : Fin 1)))
      + b (ix2 (0 : Fin 1) (0 : Fin 1)))

def layerR (h : Arr F S100000x128 .f32) (s d : Arr F S1600000 .i32) (iv : Arr F S100000x1 .f32)
    (wl wr : Arr F S128x128 .f32) (b g be : Arr F S128 .f32) : Arr F S100000x128 .f32 :=
  bnR (linR (sumTo (rowsR h s) d iv) h wl wr b) g be

def layerK (h : Arr Ideal S100000x128 .f32) (s d : Arr Ideal S1600000 .i32) (iv : Arr Ideal S100000x1 .f32)
    (wl wr : Arr Ideal S128x128 .f32) (b g be : Arr Ideal S128 .f32) : Arr Ideal S100000x128 .f32 :=
  affG (linG (sumTo (rowsK h s) d iv) h wl wr (asRow b))
    (asRow (scaleK (statsG (linG (sumTo (rowsK h s) d iv) h wl wr (asRow b))) g))
    (asRow (shiftK (statsG (linG (sumTo (rowsK h s) d iv) h wl wr (asRow b))) g be))

def asCell (v : Arr F S1 .f32) : Arr F S1x1 .f32 := shapeCast _ v Cert.KernelIdeal.Gen.shapeCasts_S1_S1x1

def refMain (x : Arr F S100000x128 .f32) (ei : Arr F S2x1600000 .i32) (Wl Wr : Arr F S3x128x128 .f32)
    (b g be : Arr F S3x128 .f32) (wlo wro : Arr F S128x1 .f32) (bo : Arr F S1 .f32) : Arr F S100000x1 .f32 :=
  outR (sumTo (rowsR
      (layerR (layerR (layerR x (srcOf ei) (dstOf ei) (invDegOf (dstOf ei)) (mat0 Wl) (mat0 Wr) (row0 b) (row0 g) (row0 be))
          (srcOf ei) (dstOf ei) (invDegOf (dstOf ei)) (mat1 Wl) (mat1 Wr) (row1 b) (row1 g) (row1 be))
        (srcOf ei) (dstOf ei) (invDegOf (dstOf ei)) (mat2 Wl) (mat2 Wr) (row2 b) (row2 g) (row2 be))
      (srcOf ei)) (dstOf ei) (invDegOf (dstOf ei)))
    (layerR (layerR (layerR x (srcOf ei) (dstOf ei) (invDegOf (dstOf ei)) (mat0 Wl) (mat0 Wr) (row0 b) (row0 g) (row0 be))
        (srcOf ei) (dstOf ei) (invDegOf (dstOf ei)) (mat1 Wl) (mat1 Wr) (row1 b) (row1 g) (row1 be))
      (srcOf ei) (dstOf ei) (invDegOf (dstOf ei)) (mat2 Wl) (mat2 Wr) (row2 b) (row2 g) (row2 be))
    wlo wro bo

def kerMain (x : Arr Ideal S100000x128 .f32) (ei : Arr Ideal S2x1600000 .i32) (Wl Wr : Arr Ideal S3x128x128 .f32)
    (b g be : Arr Ideal S3x128 .f32) (wlo wro : Arr Ideal S128x1 .f32) (bo : Arr Ideal S1 .f32) : Arr Ideal S100000x1 .f32 :=
  sigG (sumTo (rowsK
      (layerK (layerK (layerK x (srcOf ei) (dstOf ei) (invDegOf (dstOf ei)) (mat0 Wl) (mat0 Wr) (row0 b) (row0 g) (row0 be))
          (srcOf ei) (dstOf ei) (invDegOf (dstOf ei)) (mat1 Wl) (mat1 Wr) (row1 b) (row1 g) (row1 be))
        (srcOf ei) (dstOf ei) (invDegOf (dstOf ei)) (mat2 Wl) (mat2 Wr) (row2 b) (row2 g) (row2 be))
      (srcOf ei)) (dstOf ei) (invDegOf (dstOf ei)))
    (layerK (layerK (layerK x (srcOf ei) (dstOf ei) (invDegOf (dstOf ei)) (mat0 Wl) (mat0 Wr) (row0 b) (row0 g) (row0 be))
        (srcOf ei) (dstOf ei) (invDegOf (dstOf ei)) (mat1 Wl) (mat1 Wr) (row1 b) (row1 g) (row1 be))
      (srcOf ei) (dstOf ei) (invDegOf (dstOf ei)) (mat2 Wl) (mat2 Wr) (row2 b) (row2 g) (row2 be))
    wlo wro (asCell bo)

end Cert.Spec

end
-- ==== Proof.KI.HostReads.lean ====
import proofs.«418208_j66958540145299_1_alg».proof.Proof.Gen.KernelIdeal.Launch
import proofs.«418208_j66958540145299_1_alg».proof.Proof.Gen.KernelIdeal.Regions
import proofs.«418208_j66958540145299_1_alg».proof.Proof.Spec
import Idealize.ShloMosaic.Lib.StableHlo.Run

set_option maxRecDepth 16384

noncomputable section

namespace Cert.KernelIdeal.Reg

open Cert.KernelIdeal Cert.KernelIdeal.Gen Cert.Spec
open Idealize.ShloMosaic Idealize.ShloMosaic.TcCoe
open Idealize.ShloMosaic.StableHlo (after)

variable {F : FTy → Type} [FloatOps F] {α : Type} (V : Valuation τ sig (Elt F))

/-- Moving contents to a typed reference's own type and back gives the contents. -/
theorem ofBuf_toBuf {T : BufTy} (x : StableHlo.TRef sig T) (v : T.Contents (Elt F)) : x.ofBuf (x.toBuf v) = v := by
  obtain ⟨r, rfl, _, _⟩ := x; rfl

/-- The five stretches of host operations before the first region. -/
abbrev opening := after hostOps0_4 (after hostOps0_3 (after hostOps0_2 (after hostOps0_1 (after hostOps0 V))))

/-- They leave the edge list's two rows and the inverse in-degree column. -/
theorem open_v1 : opening V main_v1 = srcOf (V main_arg1) := by after_results_simp; rfl
theorem open_v3 : opening V main_v3 = dstOf (V main_arg1) := by after_results_simp; rfl
theorem open_v15 : opening V main_v15 = invDegOf (dstOf (V main_arg1)) := by
  after_results_simp; simp only [ofBuf_toBuf]; simp only [cast_eq]; rfl

/-- The five arrays region 0 reads hold the first layer's aggregated messages, its input and its parameters. -/
theorem in0 (f : _ → _ → _ → _ → _ → α) :
    f (opening V main_v21) (opening V main_arg0) (opening V main_v23) (opening V main_v25) (opening V main_v28)
      = f (sumTo (rowsK (V main_arg0) (srcOf (V main_arg1))) (dstOf (V main_arg1)) (invDegOf (dstOf (V main_arg1)))) (V main_arg0)
          (mat0 (V main_arg2)) (mat0 (V main_arg3)) (asRow (row0 (V main_arg4))) := by
  after_results_simp; simp only [ofBuf_toBuf]; simp only [cast_eq]; rfl

/-- Between a layer's two regions the dense stage is kept and the column sums and sums of squares become the scale and shift rows. -/
theorem in1 (f : _ → _ → _ → α) :
    f (after hostOps1 V main_v29_0) (after hostOps1 V main_v50) (after hostOps1 V main_v51)
      = f (V main_v29_0) (asRow (scaleK (V main_v29_1) (row0 (V main_arg5))))
          (asRow (shiftK (V main_v29_1) (row0 (V main_arg5)) (row0 (V main_arg6)))) := by
  after_results_simp; rfl
theorem in3 (f : _ → _ → _ → α) :
    f (after hostOps3 V main_v66_0) (after hostOps3 V main_v87) (after hostOps3 V main_v88)
      = f (V main_v66_0) (asRow (scaleK (V main_v66_1) (row1 (V main_arg5))))
          (asRow (shiftK (V main_v66_1) (row1 (V main_arg5)) (row1 (V main_arg6)))) := by
  after_results_simp; rfl
theorem in5 (f : _ → _ → _ → α) :
    f (after hostOps5 V main_v103_0) (after hostOps5 V main_v124) (after hostOps5 V main_v125)
      = f (V main_v103_0) (asRow (scaleK (V main_v103_1) (row2 (V main_arg5))))
          (asRow (shiftK (V main_v103_1) (row2 (V main_arg5)) (row2 (V main_arg6)))) := by
  after_results_simp; rfl

/-- Before a later layer the previous result's rows are gathered at the source indices, summed into the destination rows and scaled. -/
theorem in2 (f : _ → _ → _ → _ → _ → α) :
    f (after hostOps2_1 (after hostOps2 V) main_v58) (after hostOps2_1 (after hostOps2 V) main_v52) (after hostOps2_1 (after hostOps2 V) main_v60)
        (after hostOps2_1 (after hostOps2 V) main_v62) (after hostOps2_1 (after hostOps2 V) main_v65)
      = f (sumTo (rowsK (V main_v52) (V main_v1)) (V main_v3) (V main_v15)) (V main_v52) (mat1 (V main_arg2)) (mat1 (V main_arg3))
          (asRow (row1 (V main_arg4))) := by
  after_results_simp; simp only [ofBuf_toBuf]; simp only [cast_eq]; rfl
theorem in4 (f : _ → _ → _ → _ → _ → α) :
    f (after hostOps4_1 (after hostOps4 V) main_v95) (after hostOps4_1 (after hostOps4 V) main_v89) (after hostOps4_1 (after hostOps4 V) main_v97)
        (after hostOps4_1 (after hostOps4 V) main_v99) (after hostOps4_1 (after hostOps4 V) main_v102)
      = f (sumTo (rowsK (V main_v89) (V main_v1)) (V main_v3) (V main_v15)) (V main_v89) (mat2 (V main_arg2)) (mat2 (V main_arg3))
          (asRow (row2 (V main_arg4))) := by
  after_results_simp; simp only [ofBuf_toBuf]; simp only [cast_eq]; rfl
theorem in6 (f : _ → _ → _ → _ → _ → α) :
    f (after hostOps6_1 (after hostOps6 V) main_v132) (after hostOps6_1 (after hostOps6 V) main_v126) (after hostOps6_1 (after hostOps6 V) main_arg7)
        (after hostOps6_1 (after hostOps6 V) main_arg8) (after hostOps6_1 (after hostOps6 V) main_v133)
      = f (sumTo (rowsK (V main_v126) (V main_v1)) (V main_v3) (V main_v15)) (V main_v126) (V main_arg7) (V main_arg8) (asCell (V main_arg9)) := by
  after_results_simp; simp only [ofBuf_toBuf]; simp only [cast_eq]; rfl

end Cert.KernelIdeal.Reg

end
-- ==== Proof.KI.AffineRows.lean ====
import proofs.«418208_j66958540145299_1_alg».proof.Proof.Gen.KernelIdeal.Launch
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe
open Idealize.ShloMosaic.Pipeline (Window)
open Idealize.ShloMosaic.ValueIdx

variable {F : FTy → Type} [FloatOps F]

def affineRows (x : FVec F S100000x128 .f32) (sc sh : FVec F S1x128 .f32) : FVec F S100000x128 .f32 :=
  fun i => FloatOps.addf (FloatOps.mulf (x i) (sc (ix2 (0 : Fin 1) (⟨(i 1).val, idx2_lt1 i⟩ : Fin 128))))
    (sh (ix2 (0 : Fin 1) (⟨(i 1).val, idx2_lt1 i⟩ : Fin 128)))

/-- x is the block of X at block index ix: element j of x is the element of X at ix · (x's sizes) + j. -/
def BlkOf {α : Type} {n0 n1 m0 m1 : ℕ} (x : (⟨2, ![n0, n1]⟩ : Shape).Idx → α) (X : (⟨2, ![m0, m1]⟩ : Shape).Idx → α)
    (ix : Fin 2 → ℕ) : Prop :=
  ∀ j i, (∀ a : Fin 2, (i a).val = ix a * ![n0, n1] a + (j a).val) → x j = X i

/-- A block's element sits in the array at the block index times the block size plus its own coordinate. -/
theorem rect_emb_val_of {G : Pipeline.Grid} (w : Window sig G) (t : Fin G.N) (j : (w.xblock (G.coords t)).Idx)
    {ix : Fin w.shape.rank → ℕ} (e : w.index t = ix) (a : Fin w.shape.rank) :
    ((w.rect t).emb j a : ℕ) = ix a * w.size a + (j a).val := e ▸ w.rect_emb_val t j a

theorem rect_emb_eq {G : Pipeline.Grid} (w : Window sig G) (t : Fin G.N) (j : (w.xblock (G.coords t)).Idx) (i : w.shape.Idx)
    {ix : Fin w.shape.rank → ℕ} (e : w.index t = ix) (h : ∀ a, (i a).val = ix a * w.size a + (j a).val) : (w.rect t).emb j = i :=
  funext fun a => Fin.ext ((rect_emb_val_of w t j e a).trans (h a).symm)

/-- At block index (0, 0) an element keeps its coordinates. -/
theorem at_block_zero {s0 s1 : ℕ} (j : (⟨2, ![s0, s1]⟩ : Shape).Idx) : ∀ a : Fin 2, (j a).val = ![0, 0] a * ![s0, s1] a + (j a).val :=
  Fin.forall_fin_two.mpr ⟨by show (j 0).val = 0 * s0 + (j 0).val; omega, by show (j 1).val = 0 * s1 + (j 1).val; omega⟩

/-- Row r of an array of 100000 rows is row r % 5000 of the block of 5000 rows at block index (r / 5000, 0). -/
theorem rowBlock_cover {m : ℕ} (i : (⟨2, ![100000, m]⟩ : Shape).Idx) : ∃ (n : ℕ) (_ : n < 20) (j : (⟨2, ![5000, m]⟩ : Shape).Idx),
    ∀ a : Fin 2, (i a).val = ![n, 0] a * ![5000, m] a + (j a).val := by
  have h0 : (i 0).val < 100000 := idx2_lt0 i
  refine ⟨(i 0).val / 5000, by omega, ix2 ⟨(i 0).val % 5000, Nat.mod_lt _ (by omega)⟩ (i 1), ?_⟩
  exact Fin.forall_fin_two.mpr ⟨by show (i 0).val = (i 0).val / 5000 * 5000 + (i 0).val % 5000; omega,
    by show (i 1).val = 0 * m + (i 1).val; omega⟩

end Cert.KernelIdeal.Reg

end
-- ==== Proof.KI.MatmulAt.lean ====
import Idealize.ShloMosaic.Lib.Pipeline.Value
import Idealize.ShloMosaic.Lib.ValueIdx
import Idealize.ShloMosaic.PureOps.Ideal.Laws

noncomputable section

namespace Cert.KernelIdeal.Reg

open Idealize.ShloMosaic Idealize.ShloMosaic.ValueIdx

variable (M K N : Nat)

/-- A plain M × K by K × N product accumulated into the zero block, at row p and column q: the sum over the contracted position. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 p q) ((contrEquiv1 (DotDims.plain M K N) K rfl rfl).symm k) = ix2 p k from
      Shape.idx_ext₂ rfl hk,
    show (DotDims.plain M K N).rhsIdx (ix2 p q) ((contrEquiv1 (DotDims.plain M K N) K rfl rfl).symm k) = ix2 k q from
      Shape.idx_ext₂ hk rfl]

end Cert.KernelIdeal.Reg

end
-- ==== Proof.KI.StatsValue.lean ====
import proofs.«418208_j66958540145299_1_alg».proof.Proof.KI.Stats0
import proofs.«418208_j66958540145299_1_alg».proof.Proof.KI.AffineRows
import proofs.«418208_j66958540145299_1_alg».proof.Proof.KI.MatmulAt
import proofs.«418208_j66958540145299_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe
open Idealize.ShloMosaic.Pipeline (Dat Cfg Window)
open Idealize.ShloMosaic.ValueIdx

variable (V : (c : Dev nD) → (b : Ref sig .tc) → Buf (Elt Ideal) ((c : Thread nD τ).loc b))

open Cert.Spec (Arr linG statsG)

/-- The dense stage's payload at row r, column q: relu of the two dot products plus the bias (a change of float format is the identity over the extended reals). -/
theorem pay0_4_apply (x0 x1 : Vec Ideal S5000x128 .f32) (w0 w1 : Vec Ideal S128x128 .f32) (b : Vec Ideal S1x128 .f32)
    (r : Fin 5000) (q : Fin 128) :
    k0_pay4 x0 x1 w0 w1 b (ix2 r q)
      = max ((∑ k : Fin 128, x0 (ix2 r k) * w0 (ix2 k q)) + (∑ k : Fin 128, x1 (ix2 r k) * w1 (ix2 k q)) + b (ix2 (0 : Fin 1) q))
          (Ideal.ofBits .f32 0x00000000#32) := by
  unfold k0_pay4
  repeat rw [shapeCast_self]
  show max ((FloatOps.matmul (DotDims.plain 5000 128 128) none (truncf .bf16 x0 bitsLt_bf16_f32) (truncf .bf16 w0 bitsLt_bf16_f32)
          (constant (F := Ideal) ⟨2, ![5000, 128]⟩ .f32 0x00000000#32) (ix2 r q)
        + FloatOps.matmul (DotDims.plain 5000 128 128) none (truncf .bf16 x1 bitsLt_bf16_f32) (truncf .bf16 w1 bitsLt_bf16_f32)
          (constant (F := Ideal) ⟨2, ![5000, 128]⟩ .f32 0x00000000#32) (ix2 r q))
      + broadcastTo S5000x128 b broadcasts_S1x128_S5000x128 (ix2 r q)) (Ideal.ofBits .f32 0x00000000#32) = _
  rw [matmul_plain_zero_apply, matmul_plain_zero_apply, broadcastTo_1b_ab_apply]
  rfl

/-- The seven arrays' blocks at point n: row block n of the two inputs and of the result, block (0, 0) of the others. -/
abbrev IdxFacts (ix : Fin 7 → Fin 2 → ℕ) (n : ℕ) : Prop :=
  ix = ![![n, 0], ![n, 0], ![0, 0], ![0, 0], ![0, 0], ![n, 0], ![0, 0]]

/-- The dense stage of the blocks of five arrays is the block of the arrays' dense stage. -/
theorem pay0_4_blk {x0 x1 : Vec Ideal S5000x128 .f32} {w0 w1 : Vec Ideal S128x128 .f32} {b : Vec Ideal S1x128 .f32}
    {A H : Arr Ideal S100000x128 .f32} {wl wr : Arr Ideal S128x128 .f32} {bb : Arr Ideal S1x128 .f32}
    {ix : Fin 7 → Fin 2 → ℕ} {n : ℕ} (e : IdxFacts ix n)
    (h0 : BlkOf x0 A (ix 0)) (h1 : BlkOf x1 H (ix 1)) (h2 : BlkOf w0 wl (ix 2)) (h3 : BlkOf w1 wr (ix 3)) (h4 : BlkOf b bb (ix 4)) :
    BlkOf (k0_pay4 x0 x1 w0 w1 b) (linG A H wl wr bb) ![n, 0] := by
  subst e
  intro j i h
  obtain ⟨r, q, rfl⟩ : ∃ (r : Fin 5000) (q : Fin 128), j = ix2 r q := ⟨j 0, j 1, eq_ix2 j⟩
  have hr : (i 0).val = n * 5000 + r.val := h 0
  have hc : (i 1).val = 0 * 128 + q.val := h 1
  rw [pay0_4_apply]
  have a0 : ∀ k : Fin 128, x0 (ix2 r k) = A (ix2 (i 0) k) := fun k => h0 _ _ (Fin.forall_fin_two.mpr
    ⟨by show (i 0).val = n * 5000 + r.val; omega, by show k.val = 0 * 128 + k.val; omega⟩)
  have a1 : ∀ k : Fin 128, x1 (ix2 r k) = H (ix2 (i 0) k) := fun k => h1 _ _ (Fin.forall_fin_two.mpr
    ⟨by show (i 0).val = n * 5000 + r.val; omega, by show k.val = 0 * 128 + k.val; omega⟩)
  have a2 : ∀ k : Fin 128, w0 (ix2 k q) = wl (ix2 k (i 1)) := fun k => h2 _ _ (Fin.forall_fin_two.mpr
    ⟨by show k.val = 0 * 128 + k.val; omega, by show (i 1).val = 0 * 128 + q.val; omega⟩)
  have a3 : ∀ k : Fin 128, w1 (ix2 k q) = wr (ix2 k (i 1)) := fun k => h3 _ _ (Fin.forall_fin_two.mpr
    ⟨by show k.val = 0 * 128 + k.val; omega, by show (i 1).val = 0 * 128 + q.val; omega⟩)
  have a4 : b (ix2 (0 : Fin 1) q) = bb (ix2 (0 : Fin 1) (i 1)) := h4 _ _ (Fin.forall_fin_two.mpr
    ⟨by show 0 = 0 * 1 + 0; omega, by show (i 1).val = 0 * 128 + q.val; omega⟩)
  simp only [a0, a1, a2, a3, a4]
  rfl

theorem lift_rows0 (h : S5000x128.Reduces [0] S128) (q : Fin 128) (k : Fin 5000) : h.lift (ix1 q) k = ix2 k q := by
  funext a; apply Fin.ext
  fin_cases a <;> rfl

theorem colsum0_apply (v : FVec Ideal S5000x128 .f32) (q : Fin 128) :
    shapeCast S1x128 (multiReduction .add [0] S128 v 0x00000000#32 reduces_S5000x128_S128 (.inl rfl) rfl) shapeCasts_S128_S1x128
        (ix2 (0 : Fin 1) q) = ∑ r : Fin 5000, v (ix2 r q) := by
  refine (shapeCast_a_1a_apply _ shapeCasts_S128_S1x128 (0 : Fin 1) q).trans ?_
  refine (Ideal.multiReduction_add_single v 0x00000000#32 reduces_S5000x128_S128 (.inl rfl) rfl (ix1 q)).trans ?_
  show ∑ k : Fin 5000, v (reduces_S5000x128_S128.lift (ix1 q) k) = _
  exact Finset.sum_congr rfl fun k _ => by rw [lift_rows0]

theorem pay0_5_apply (x0 x1 : Vec Ideal S5000x128 .f32) (w0 w1 : Vec Ideal S128x128 .f32) (b : Vec Ideal S1x128 .f32)
    (s : Vec Ideal S1x128 .f32) (q : Fin 128) :
    k0_pay5 x0 x1 w0 w1 b s (ix2 (0 : Fin 1) q) = s (ix2 (0 : Fin 1) q) + ∑ r : Fin 5000, k0_pay4 x0 x1 w0 w1 b (ix2 r q) := by
  unfold k0_pay5
  rw [shapeCast_self]
  exact congrArg (s (ix2 (0 : Fin 1) q) + ·) (colsum0_apply (k0_pay4 x0 x1 w0 w1 b) q)

theorem pay0_1_apply (v : FVec Ideal S5000x128 .f32) (s : Vec Ideal S1x128 .f32) (q : Fin 128) :
    k0_pay1 v s (ix2 (0 : Fin 1) q) = s (ix2 (0 : Fin 1) q) + ∑ r : Fin 5000, v (ix2 r q) * v (ix2 r q) := by
  unfold k0_pay1
  rw [shapeCast_self]
  exact congrArg (s (ix2 (0 : Fin 1) q) + ·) (colsum0_apply (mulf v v) q)

theorem pay0_2_apply (q : Fin 128) : (k0_pay2 (F := Ideal)) (ix2 (0 : Fin 1) q) = 0 := by
  unfold k0_pay2
  rw [shapeCast_self]
  exact Ideal.ofBits_zero_f32
theorem pay0_3_apply (q : Fin 128) : (k0_pay3 (F := Ideal)) (ix2 (0 : Fin 1) q) = 0 := pay0_2_apply q

def rowAt0 (f : S100000x128.Idx → EReal) (q : Fin 128) (m : ℕ) : EReal :=
  if h : m < 100000 then f (ix2 (⟨m, h⟩ : Fin 100000) q) else 0

theorem sum_rowAt0 (f : S100000x128.Idx → EReal) (q : Fin 128) :
    ∑ m ∈ Finset.range 100000, rowAt0 f q m = ∑ r : Fin 100000, f (ix2 r q) := by
  rw [Finset.sum_range]
  exact Finset.sum_congr rfl fun r _ => by unfold rowAt0; rw [dif_pos r.isLt]

/-- The column sum of row block n is the sum of the array's rows 5000 n … 5000 n + 4999. -/
theorem blk_sum0 {P : S5000x128.Idx → EReal} {G : S100000x128.Idx → EReal} {n : ℕ} (hP : BlkOf P G ![n, 0]) (hn : n < 20) (q : Fin 128) :
    ∑ r : Fin 5000, P (ix2 r q) = ∑ k ∈ Finset.range 5000, rowAt0 G q (5000 * n + k) := by
  rw [Finset.sum_range]
  refine Finset.sum_congr rfl fun r _ => ?_
  have hρ : 5000 * n + r.val < 100000 := by have := r.isLt; omega
  unfold rowAt0
  rw [dif_pos hρ]
  exact hP _ _ (Fin.forall_fin_two.mpr ⟨by show 5000 * n + r.val = n * 5000 + r.val; omega, by show q.val = 0 * 128 + q.val; omega⟩)

/-- Adding row block n's column sums to the sums over the rows below 5000 n gives the sums over the rows below 5000 (n + 1). -/
theorem step_sums0 {x0 x1 : Vec Ideal S5000x128 .f32} {w0 w1 : Vec Ideal S128x128 .f32} {b : Vec Ideal S1x128 .f32}
    {G : S100000x128.Idx → EReal} {n : ℕ} (hP : BlkOf (k0_pay4 x0 x1 w0 w1 b) G ![n, 0]) (hn : n < 20)
    (s : Vec Ideal S1x128 .f32 × Vec Ideal S1x128 .f32) (q : Fin 128)
    (h1 : s.1 (ix2 (0 : Fin 1) q) = ∑ m ∈ Finset.range (5000 * n), rowAt0 G q m)
    (h2 : s.2 (ix2 (0 : Fin 1) q) = ∑ m ∈ Finset.range (5000 * n), rowAt0 (fun i => G i * G i) q m) :
    sum0 x0 x1 w0 w1 b s.1 (ix2 (0 : Fin 1) q) = ∑ m ∈ Finset.range (5000 * (n + 1)), rowAt0 G q m
      ∧ sq0 x0 x1 w0 w1 b s.2 (ix2 (0 : Fin 1) q) = ∑ m ∈ Finset.range (5000 * (n + 1)), rowAt0 (fun i => G i * G i) q m := by
  rw [show 5000 * (n + 1) = 5000 * n + 5000 from by omega, Finset.sum_range_add, Finset.sum_range_add, ← h1, ← h2,
    ← blk_sum0 hP hn q, ← blk_sum0 (fun j i h => congrArg (fun z => z * z) (hP j i h)) hn q]
  exact ⟨pay0_5_apply x0 x1 w0 w1 b s.1 q, pay0_1_apply _ s.2 q⟩

section Run
variable {N : ℕ} {x0 x1 : (n : ℕ) → n < N → Vec Ideal S5000x128 .f32} {w0 w1 : (n : ℕ) → n < N → Vec Ideal S128x128 .f32}
  {b : (n : ℕ) → n < N → Vec Ideal S1x128 .f32} {acc : (n : ℕ) → n < N → Vec Ideal S1x128 .f32 × Vec Ideal S1x128 .f32}
  {G : S100000x128.Idx → EReal}

/-- The carried pair, started from zero and stepped at every point, holds after point n the column sums over the rows below 5000 (n + 1). -/
theorem acc_sums0 (hN : N = 20)
    (hP : ∀ n hn, BlkOf (k0_pay4 (x0 n hn) (x1 n hn) (w0 n hn) (w1 n hn) (b n hn)) G ![n, 0])
    (h0 : ∀ hn, acc 0 hn = (sum0 (x0 0 hn) (x1 0 hn) (w0 0 hn) (w1 0 hn) (b 0 hn) (k0_pay2 (F := Ideal)), sq0 (x0 0 hn) (x1 0 hn) (w0 0 hn) (w1 0 hn) (b 0 hn) (k0_pay3 (F := Ideal))))
    (hs : ∀ n hn, acc (n + 1) hn = (sum0 (x0 (n + 1) hn) (x1 (n + 1) hn) (w0 (n + 1) hn) (w1 (n + 1) hn) (b (n + 1) hn) (acc n (Nat.lt_of_succ_lt hn)).1,
      sq0 (x0 (n + 1) hn) (x1 (n + 1) hn) (w0 (n + 1) hn) (w1 (n + 1) hn) (b (n + 1) hn) (acc n (Nat.lt_of_succ_lt hn)).2))
    (q : Fin 128) : ∀ n hn, (acc n hn).1 (ix2 (0 : Fin 1) q) = ∑ m ∈ Finset.range (5000 * (n + 1)), rowAt0 G q m
      ∧ (acc n hn).2 (ix2 (0 : Fin 1) q) = ∑ m ∈ Finset.range (5000 * (n + 1)), rowAt0 (fun i => G i * G i) q m
  | 0, hn => by
    rw [h0 hn]
    have z : ∀ f : ℕ → EReal, (0 : EReal) = ∑ m ∈ Finset.range (5000 * 0), f m := fun f => by
      rw [Nat.mul_zero, Finset.range_zero, Finset.sum_empty]
    exact step_sums0 (hP 0 hn) (by omega) (k0_pay2 (F := Ideal), k0_pay3 (F := Ideal)) q ((pay0_2_apply q).trans (z _)) ((pay0_3_apply q).trans (z _))
  | n + 1, hn => by
    rw [hs n hn]
    exact step_sums0 (hP _ hn) (by omega) _ q (acc_sums0 hN hP h0 hs q n _).1 (acc_sums0 hN hP h0 hs q n _).2

/-- The statistics block made of the pair after the last point is the statistics of the whole array. -/
theorem out0_6_stats (hN : N = 20)
    (hP : ∀ n hn, BlkOf (k0_pay4 (x0 n hn) (x1 n hn) (w0 n hn) (w1 n hn) (b n hn)) G ![n, 0])
    (h0 : ∀ hn, acc 0 hn = (sum0 (x0 0 hn) (x1 0 hn) (w0 0 hn) (w1 0 hn) (b 0 hn) (k0_pay2 (F := Ideal)), sq0 (x0 0 hn) (x1 0 hn) (w0 0 hn) (w1 0 hn) (b 0 hn) (k0_pay3 (F := Ideal))))
    (hs : ∀ n hn, acc (n + 1) hn = (sum0 (x0 (n + 1) hn) (x1 (n + 1) hn) (w0 (n + 1) hn) (w1 (n + 1) hn) (b (n + 1) hn) (acc n (Nat.lt_of_succ_lt hn)).1,
      sq0 (x0 (n + 1) hn) (x1 (n + 1) hn) (w0 (n + 1) hn) (w1 (n + 1) hn) (b (n + 1) hn) (acc n (Nat.lt_of_succ_lt hn)).2))
    (h19 : 19 < N) : out0_6 (acc 19 h19).1 (acc 19 h19).2 = statsG G := by
  have col : ∀ (q z : Fin 128), z.val = 0 + 1 * q.val → z = q := fun q z h => Fin.ext (by omega)
  have row0 : ∀ x : S1x128.Idx, (acc 19 h19).1 x = statsG G (r0_st0.emb x) := fun x => by
    obtain ⟨u, q, rfl⟩ : ∃ (u : Fin 1) (q : Fin 128), x = ix2 u q := ⟨x 0, x 1, eq_ix2 x⟩
    obtain rfl : u = 0 := Subsingleton.elim _ _
    refine (acc_sums0 hN hP h0 hs q 19 h19).1.trans ((sum_rowAt0 G q).trans (Eq.trans ?_ (if_pos rfl).symm))
    exact Finset.sum_congr rfl fun r _ => congrArg (fun z : Fin 128 => G (ix2 r z)) (col q _ rfl).symm
  have row1 : ∀ x : S1x128.Idx, (acc 19 h19).2 x = statsG G (r0_st1.emb x) := fun x => by
    obtain ⟨u, q, rfl⟩ : ∃ (u : Fin 1) (q : Fin 128), x = ix2 u q := ⟨x 0, x 1, eq_ix2 x⟩
    obtain rfl : u = 0 := Subsingleton.elim _ _
    refine (acc_sums0 hN hP h0 hs q 19 h19).2.trans ((sum_rowAt0 _ q).trans (Eq.trans ?_ (if_neg Nat.one_ne_zero).symm))
    exact Finset.sum_congr rfl fun r _ => congrArg (fun z : Fin 128 => G (ix2 r z) * G (ix2 r z)) (col q _ rfl).symm
  funext y
  unfold out0_6
  refine View.canon_apply_of_pieces (statsG G) _ (fun p hp x => ?_) y (cover0_6 _ _ y)
  rcases List.mem_cons.mp hp with rfl | hp
  · exact row1 x
  · obtain rfl := List.mem_singleton.mp hp
    exact row0 x
end Run

abbrev widx0 (t : Fin cfg0.N) : Fin 7 → Fin 2 → ℕ :=
  ![win0_0.index t, win0_1.index t, win0_2.index t, win0_3.index t, win0_4.index t, win0_5.index t, win0_6.index t]

theorem idx_facts0 : ∀ t : Fin cfg0.N, IdxFacts (widx0 t) t.val := (by decide +kernel : ∀ t : Fin grid0.N, _)

/-- Point t's payload is row block t of the dense stage of the arrays the region reads. -/
theorem pay0_blk (c : Dev nD) (t : Fin cfg0.N) :
    BlkOf (k0_pay4 (iblk0 V c 0 t) (iblk0 V c 1 t) (iblk0 V c 2 t) (iblk0 V c 3 t) (iblk0 V c 4 t))
      (linG (V c main_v21) (V c main_arg0) (V c main_v23) (V c main_v25) (V c main_v28)) ![t.val, 0] :=
  pay0_4_blk (idx_facts0 t)
    (fun j i h => congrArg (V c main_v21) (rect_emb_eq win0_0 t j i rfl h)) (fun j i h => congrArg (V c main_arg0) (rect_emb_eq win0_1 t j i rfl h))
    (fun j i h => congrArg (V c main_v23) (rect_emb_eq win0_2 t j i rfl h)) (fun j i h => congrArg (V c main_v25) (rect_emb_eq win0_3 t j i rfl h))
    (fun j i h => congrArg (V c main_v28) (rect_emb_eq win0_4 t j i rfl h))

theorem final0_5 (c : Dev nD) :
    (dat0 V c).arrAt 5 cfg0.N = linG (V c main_v21) (V c main_arg0) (V c main_v23) (V c main_v25) (V c main_v28) :=
  (dat0 V c).arrAt_eq_of_cover 5 _
    (fun t _ => by
      show (cfg0.win 5).cut (grid0.coords t) ((dat0 V c).after 5 t) = _
      rw [after0_5, out0_5_eq]
      exact funext fun j => pay0_blk V c t j _ (rect_emb_val_of win0_5 t j (congrFun (idx_facts0 t) 5)))
    fun i => by
      obtain ⟨n, hn, j, h⟩ := rowBlock_cover i
      exact ⟨⟨n, hn.trans_eq N_0.symm⟩, flush0_5 _,
        rect_emb_eq win0_5 ⟨n, hn.trans_eq N_0.symm⟩ j i (congrFun (idx_facts0 _) 5) h ▸ View.emb_mem_set _ j⟩

theorem final0_6 (c : Dev nD) :
    (dat0 V c).arrAt 6 cfg0.N = statsG (linG (V c main_v21) (V c main_arg0) (V c main_v23) (V c main_v25) (V c main_v28)) :=
  (dat0 V c).arrAt_eq_of_cover 6 _
    (fun t hf => by
      have h19 : t.val = 19 := by have := (flush0_6 t).mp hf; have := t.isLt.trans_eq N_0; omega
      show (cfg0.win 6).cut (grid0.coords t) ((dat0 V c).after 6 t) = _
      rw [after0_6_last V c t h19, out0_6_stats N_0 (fun n hn => pay0_blk V c ⟨n, hn⟩) (accAt0_zero V c) (accAt0_succ V c) lt19_0]
      exact funext fun j => congrArg (statsG _) (rect_emb_eq win0_6 t j j (congrFun (idx_facts0 t) 6) (at_block_zero j)).symm)
    fun i => ⟨⟨19, lt19_0⟩, (flush0_6 _).mpr rfl,
      rect_emb_eq win0_6 ⟨19, lt19_0⟩ i i (congrFun (idx_facts0 _) 6) (at_block_zero i) ▸ View.emb_mem_set _ i⟩

end Cert.KernelIdeal.Reg

end
-- ==== Proof.KI.StatsValue2.lean ====
import proofs.«418208_j66958540145299_1_alg».proof.Proof.KI.Stats2
import proofs.«418208_j66958540145299_1_alg».proof.Proof.KI.StatsValue

set_option maxRecDepth 16384

noncomputable section

namespace Cert.KernelIdeal.Reg

open Cert.KernelIdeal Cert.KernelIdeal.Gen
open Idealize.ShloMosaic Idealize.ShloMosaic.TcCoe
open Idealize.ShloMosaic.Pipeline (Dat Cfg Window)
open Idealize.ShloMosaic.ValueIdx
open Cert.Spec (linG statsG)

variable (V : (c : Dev nD) → (b : Ref sig .tc) → Buf (Elt Ideal) ((c : Thread nD τ).loc b))

/-- Regions 2 and 4 run the same kernel function as region 0; their payloads differ from its by one identity cast. -/
theorem k2_pay4_eq (x0 x1 : Vec Ideal S5000x128 .f32) (w0 w1 : Vec Ideal S128x128 .f32) (b : Vec Ideal S1x128 .f32) :
    k2_pay4 x0 x1 w0 w1 b = k0_pay4 x0 x1 w0 w1 b := by
  unfold k2_pay4 k0_pay4
  simp only [shapeCast_self]

theorem sum2_eq (x0 x1 : Vec Ideal S5000x128 .f32) (w0 w1 : Vec Ideal S128x128 .f32) (b s : Vec Ideal S1x128 .f32) :
    sum2 x0 x1 w0 w1 b s = sum0 x0 x1 w0 w1 b s := by
  unfold sum2 sum0 k2_pay5 k0_pay5
  rw [k2_pay4_eq]

theorem sq2_eq (x0 x1 : Vec Ideal S5000x128 .f32) (w0 w1 : Vec Ideal S128x128 .f32) (b s : Vec Ideal S1x128 .f32) :
    sq2 x0 x1 w0 w1 b s = sq0 x0 x1 w0 w1 b s := by
  unfold sq2 sq0
  rw [k2_pay4_eq]
  rfl

theorem out2_6_eq (s q : Vec Ideal S1x128 .f32) : out2_6 s q = out0_6 s q := rfl

abbrev widx2 (t : Fin cfg2.N) : Fin 7 → Fin 2 → ℕ :=
  ![win2_0.index t, win2_1.index t, win2_2.index t, win2_3.index t, win2_4.index t, win2_5.index t, win2_6.index t]

theorem idx_facts2 : ∀ t : Fin cfg2.N, IdxFacts (widx2 t) t.val := (by decide +kernel : ∀ t : Fin grid2.N, _)

theorem pay2_blk (c : Dev nD) (t : Fin cfg2.N) :
    BlkOf (k0_pay4 (iblk2 V c 0 t) (iblk2 V c 1 t) (iblk2 V c 2 t) (iblk2 V c 3 t) (iblk2 V c 4 t))
      (linG (V c main_v58) (V c main_v52) (V c main_v60) (V c main_v62) (V c main_v65)) ![t.val, 0] :=
  pay0_4_blk (idx_facts2 t)
    (fun j i h => congrArg (V c main_v58) (rect_emb_eq win2_0 t j i rfl h)) (fun j i h => congrArg (V c main_v52) (rect_emb_eq win2_1 t j i rfl h))
    (fun j i h => congrArg (V c main_v60) (rect_emb_eq win2_2 t j i rfl h)) (fun j i h => congrArg (V c main_v62) (rect_emb_eq win2_3 t j i rfl h))
    (fun j i h => congrArg (V c main_v65) (rect_emb_eq win2_4 t j i rfl h))

theorem final2_5 (c : Dev nD) :
    (dat2 V c).arrAt 5 cfg2.N = linG (V c main_v58) (V c main_v52) (V c main_v60) (V c main_v62) (V c main_v65) :=
  (dat2 V c).arrAt_eq_of_cover 5 _
    (fun t _ => by
      show (cfg2.win 5).cut (grid2.coords t) ((dat2 V c).after 5 t) = _
      rw [after2_5, out2_5_eq, k2_pay4_eq]
      exact funext fun j => pay2_blk V c t j _ (rect_emb_val_of win2_5 t j (congrFun (idx_facts2 t) 5)))
    fun i => by
      obtain ⟨n, hn, j, h⟩ := rowBlock_cover i
      exact ⟨⟨n, hn.trans_eq N_2.symm⟩, flush2_5 _,
        rect_emb_eq win2_5 ⟨n, hn.trans_eq N_2.symm⟩ j i (congrFun (idx_facts2 _) 5) h ▸ View.emb_mem_set _ j⟩

theorem final2_6 (c : Dev nD) :
    (dat2 V c).arrAt 6 cfg2.N = statsG (linG (V c main_v58) (V c main_v52) (V c main_v60) (V c main_v62) (V c main_v65)) :=
  (dat2 V c).arrAt_eq_of_cover 6 _
    (fun t hf => by
      have h19 : t.val = 19 := by have := (flush2_6 t).mp hf; have := t.isLt.trans_eq N_2; omega
      show (cfg2.win 6).cut (grid2.coords t) ((dat2 V c).after 6 t) = _
      rw [after2_6_last V c t h19, out2_6_eq, out0_6_stats N_2 (fun n hn => pay2_blk V c ⟨n, hn⟩)
        (fun hn => by rw [accAt2_zero, sum2_eq, sq2_eq]; rfl) (fun n hn => by rw [accAt2_succ, sum2_eq, sq2_eq]) lt19_2]
      exact funext fun j => congrArg (statsG _) (rect_emb_eq win2_6 t j j (congrFun (idx_facts2 t) 6) (at_block_zero j)).symm)
    fun i => ⟨⟨19, lt19_2⟩, (flush2_6 _).mpr rfl,
      rect_emb_eq win2_6 ⟨19, lt19_2⟩ i i (congrFun (idx_facts2 _) 6) (at_block_zero i) ▸ View.emb_mem_set _ i⟩

end Cert.KernelIdeal.Reg

end
-- ==== Proof.KI.StatsValue4.lean ====
import proofs.«418208_j66958540145299_1_alg».proof.Proof.KI.Stats4
import proofs.«418208_j66958540145299_1_alg».proof.Proof.KI.StatsValue2

set_option maxRecDepth 16384

noncomputable section

namespace Cert.KernelIdeal.Reg

open Cert.KernelIdeal Cert.KernelIdeal.Gen
open Idealize.ShloMosaic Idealize.ShloMosaic.TcCoe
open Idealize.ShloMosaic.Pipeline (Dat Cfg Window)
open Idealize.ShloMosaic.ValueIdx
open Cert.Spec (linG statsG)

variable (V : (c : Dev nD) → (b : Ref sig .tc) → Buf (Elt Ideal) ((c : Thread nD τ).loc b))

abbrev widx4 (t : Fin cfg4.N) : Fin 7 → Fin 2 → ℕ :=
  ![win4_0.index t, win4_1.index t, win4_2.index t, win4_3.index t, win4_4.index t, win4_5.index t, win4_6.index t]

theorem idx_facts4 : ∀ t : Fin cfg4.N, IdxFacts (widx4 t) t.val := (by decide +kernel : ∀ t : Fin grid4.N, _)

theorem pay4_blk (c : Dev nD) (t : Fin cfg4.N) :
    BlkOf (k0_pay4 (iblk4 V c 0 t) (iblk4 V c 1 t) (iblk4 V c 2 t) (iblk4 V c 3 t) (iblk4 V c 4 t))
      (linG (V c main_v95) (V c main_v89) (V c main_v97) (V c main_v99) (V c main_v102)) ![t.val, 0] :=
  pay0_4_blk (idx_facts4 t)
    (fun j i h => congrArg (V c main_v95) (rect_emb_eq win4_0 t j i rfl h)) (fun j i h => congrArg (V c main_v89) (rect_emb_eq win4_1 t j i rfl h))
    (fun j i h => congrArg (V c main_v97) (rect_emb_eq win4_2 t j i rfl h)) (fun j i h => congrArg (V c main_v99) (rect_emb_eq win4_3 t j i rfl h))
    (fun j i h => congrArg (V c main_v102) (rect_emb_eq win4_4 t j i rfl h))

theorem final4_5 (c : Dev nD) :
    (dat4 V c).arrAt 5 cfg4.N = linG (V c main_v95) (V c main_v89) (V c main_v97) (V c main_v99) (V c main_v102) :=
  (dat4 V c).arrAt_eq_of_cover 5 _
    (fun t _ => by
      show (cfg4.win 5).cut (grid4.coords t) ((dat4 V c).after 5 t) = _
      rw [after4_5, out2_5_eq, k2_pay4_eq]
      exact funext fun j => pay4_blk V c t j _ (rect_emb_val_of win4_5 t j (congrFun (idx_facts4 t) 5)))
    fun i => by
      obtain ⟨n, hn, j, h⟩ := rowBlock_cover i
      exact ⟨⟨n, hn.trans_eq N_4.symm⟩, flush4_5 _,
        rect_emb_eq win4_5 ⟨n, hn.trans_eq N_4.symm⟩ j i (congrFun (idx_facts4 _) 5) h ▸ View.emb_mem_set _ j⟩

theorem final4_6 (c : Dev nD) :
    (dat4 V c).arrAt 6 cfg4.N = statsG (linG (V c main_v95) (V c main_v89) (V c main_v97) (V c main_v99) (V c main_v102)) :=
  (dat4 V c).arrAt_eq_of_cover 6 _
    (fun t hf => by
      have h19 : t.val = 19 := by have := (flush4_6 t).mp hf; have := t.isLt.trans_eq N_4; omega
      show (cfg4.win 6).cut (grid4.coords t) ((dat4 V c).after 6 t) = _
      rw [after4_6_last V c t h19, out2_6_eq, out0_6_stats N_4 (fun n hn => pay4_blk V c ⟨n, hn⟩)
        (fun hn => by rw [accAt4_zero, sum2_eq, sq2_eq]; rfl) (fun n hn => by rw [accAt4_succ, sum2_eq, sq2_eq]) lt19_4]
      exact funext fun j => congrArg (statsG _) (rect_emb_eq win4_6 t j j (congrFun (idx_facts4 t) 6) (at_block_zero j)).symm)
    fun i => ⟨⟨19, lt19_4⟩, (flush4_6 _).mpr rfl,
      rect_emb_eq win4_6 ⟨19, lt19_4⟩ i i (congrFun (idx_facts4 _) 6) (at_block_zero i) ▸ View.emb_mem_set _ i⟩

end Cert.KernelIdeal.Reg

end
-- ==== Proof.KI.AffineValue.lean ====
import proofs.«418208_j66958540145299_1_alg».proof.Proof.KI.Affine1
import proofs.«418208_j66958540145299_1_alg».proof.Proof.KI.AffineRows
import Idealize.ShloMosaic.Lib.Pipeline.Value
import Idealize.ShloMosaic.Lib.ValueIdx
import Idealize.ShloMosaic.Lib.ValueLayout

set_option maxRecDepth 16384

noncomputable section

namespace Cert.KernelIdeal.Reg

open Cert.KernelIdeal Cert.KernelIdeal.Gen
open Idealize.ShloMosaic Idealize.ShloMosaic.TcCoe
open Idealize.ShloMosaic.Pipeline (Dat Cfg Window)
open Idealize.ShloMosaic.ValueIdx

variable {F : FTy → Type} [FloatOps F]

variable (V : (c : Dev nD) → (b : Ref sig .tc) → Buf (Elt F) ((c : Thread nD τ).loc b))

theorem hz1 : (![0, 0] : Fin 2 → Nat) = fun _ => 0 := funext fun a => by fin_cases a <;> rfl

/-- The kernel's payload at an index of a block: the element times the scale at its column plus the shift at its column. -/
theorem pay1_apply (x0 : Vec F S5000x128 .f32) (x1 x2 : Vec F S1x128 .f32) (j : S5000x128.Idx) :
    k1_pay1 x0 x1 x2 j = FloatOps.addf (FloatOps.mulf (x0 j) (x1 (ix2 (0 : Fin 1) (⟨(j 1).val, idx2_lt1 j⟩ : Fin 128))))
      (x2 (ix2 (0 : Fin 1) (⟨(j 1).val, idx2_lt1 j⟩ : Fin 128))) := by
  show FloatOps.addf (FloatOps.mulf (shapeCast S5000x128 x0 shapeCasts_S5000x128_S5000x128 j)
      (broadcastTo S5000x128 (shapeCast S1x128 x1 shapeCasts_S1x128_S1x128) broadcasts_S1x128_S5000x128 j))
    (broadcastTo S5000x128 (shapeCast S1x128 x2 shapeCasts_S1x128_S1x128) broadcasts_S1x128_S5000x128 j) = _
  rw [shapeCast_self, shapeCast_self, shapeCast_self]
  refine congrArg₂ FloatOps.addf (congrArg (FloatOps.mulf (x0 j)) (broadcastTo_apply x1 _ j _ fun ax => ?_))
    (broadcastTo_apply x2 _ j _ fun ax => ?_) <;> fin_cases ax <;> rfl

/-- out1_3 is the payload itself: its loads and its one store are of whole blocks. -/
theorem out1_3_eq (x0 : Vec F S5000x128 .f32) (x1 x2 : Vec F S1x128 .f32) : out1_3 x0 x1 x2 = k1_pay1 x0 x1 x2 := by
  unfold out1_3
  rw [View.canon_unit_zero hz1, View.ld_unit_zero (S := S5000x128) hz1, View.ld_unit_zero (S := S1x128) hz1,
    View.ld_unit_zero (S := S1x128) hz1]

/-- The four arrays' blocks at point n: row block n of the activations and of the result, block (0, 0) of the scale and shift rows. -/
abbrev IdxFacts1 (ix : Fin 4 → Fin 2 → ℕ) (n : ℕ) : Prop := ix = ![![n, 0], ![0, 0], ![0, 0], ![n, 0]]

/-- The affine map of a row block by the scale and shift rows is the row block of the array's affine map. -/
theorem pay1_blk {x0 : Vec F S5000x128 .f32} {x1 x2 : Vec F S1x128 .f32} {X : FVec F S100000x128 .f32} {sc sh : FVec F S1x128 .f32}
    {ix : Fin 4 → Fin 2 → ℕ} {n : ℕ} (e : IdxFacts1 ix n) (h0 : BlkOf x0 X (ix 0)) (h1 : BlkOf x1 sc (ix 1)) (h2 : BlkOf x2 sh (ix 2)) :
    BlkOf (k1_pay1 x0 x1 x2) (affineRows X sc sh) ![n, 0] := by
  subst e
  intro j i h
  have e1 : ∀ a : Fin 2, ((ix2 (0 : Fin 1) (⟨(i 1).val, idx2_lt1 i⟩ : Fin 128)) a).val
      = ![0, 0] a * ![1, 128] a + ((ix2 (0 : Fin 1) (⟨(j 1).val, idx2_lt1 j⟩ : Fin 128)) a).val :=
    Fin.forall_fin_two.mpr ⟨by show 0 = 0 * 1 + 0; omega,
      by have hc : (i 1).val = 0 * 128 + (j 1).val := h 1; show (i 1).val = 0 * 128 + (j 1).val; omega⟩
  rw [pay1_apply, h0 j i h, h1 _ _ e1, h2 _ _ e1]
  rfl

abbrev widx1 (t : Fin cfg1.N) : Fin 4 → Fin 2 → ℕ := ![win1_0.index t, win1_1.index t, win1_2.index t, win1_3.index t]

theorem idx_facts1 : ∀ t : Fin cfg1.N, IdxFacts1 (widx1 t) t.val := (by decide +kernel : ∀ t : Fin grid1.N, _)

theorem final1_3 (c : Dev nD) :
    (dat1 V c).arrAt 3 cfg1.N = affineRows (V c main_v29_0) (V c main_v50) (V c main_v51) :=
  (dat1 V c).arrAt_eq_of_cover 3 _
    (fun t _ => by
      show (cfg1.win 3).cut (grid1.coords t) ((dat1 V c).after 3 t) = _
      rw [after1_3, out1_3_eq]
      exact funext fun j => pay1_blk (idx_facts1 t)
        (fun j i h => congrArg (V c main_v29_0) (rect_emb_eq win1_0 t j i rfl h))
        (fun j i h => congrArg (V c main_v50) (rect_emb_eq win1_1 t j i rfl h))
        (fun j i h => congrArg (V c main_v51) (rect_emb_eq win1_2 t j i rfl h))
        j _ (rect_emb_val_of win1_3 t j (congrFun (idx_facts1 t) 3)))
    fun i => by
      obtain ⟨n, hn, j, h⟩ := rowBlock_cover i
      exact ⟨⟨n, hn.trans_eq N_1.symm⟩, flush1_3 _,
        rect_emb_eq win1_3 ⟨n, hn.trans_eq N_1.symm⟩ j i (congrFun (idx_facts1 _) 3) h ▸ View.emb_mem_set _ j⟩

end Cert.KernelIdeal.Reg

end
-- ==== Proof.KI.AffineValue3.lean ====
import proofs.«418208_j66958540145299_1_alg».proof.Proof.KI.Affine3
import proofs.«418208_j66958540145299_1_alg».proof.Proof.KI.AffineValue

set_option maxRecDepth 16384

noncomputable section

namespace Cert.KernelIdeal.Reg

open Cert.KernelIdeal Cert.KernelIdeal.Gen
open Idealize.ShloMosaic Idealize.ShloMosaic.TcCoe
open Idealize.ShloMosaic.Pipeline (Dat Cfg Window)
open Idealize.ShloMosaic.ValueIdx

variable {F : FTy → Type} [FloatOps F]

variable (V : (c : Dev nD) → (b : Ref sig .tc) → Buf (Elt F) ((c : Thread nD τ).loc b))

abbrev widx3 (t : Fin cfg3.N) : Fin 4 → Fin 2 → ℕ := ![win3_0.index t, win3_1.index t, win3_2.index t, win3_3.index t]

theorem idx_facts3 : ∀ t : Fin cfg3.N, IdxFacts1 (widx3 t) t.val := (by decide +kernel : ∀ t : Fin grid3.N, _)

theorem final3_3 (c : Dev nD) :
    (dat3 V c).arrAt 3 cfg3.N = affineRows (V c main_v66_0) (V c main_v87) (V c main_v88) :=
  (dat3 V c).arrAt_eq_of_cover 3 _
    (fun t _ => by
      show (cfg3.win 3).cut (grid3.coords t) ((dat3 V c).after 3 t) = _
      rw [after3_3, out1_3_eq]
      exact funext fun j => pay1_blk (idx_facts3 t)
        (fun j i h => congrArg (V c main_v66_0) (rect_emb_eq win3_0 t j i rfl h))
        (fun j i h => congrArg (V c main_v87) (rect_emb_eq win3_1 t j i rfl h))
        (fun j i h => congrArg (V c main_v88) (rect_emb_eq win3_2 t j i rfl h))
        j _ (rect_emb_val_of win3_3 t j (congrFun (idx_facts3 t) 3)))
    fun i => by
      obtain ⟨n, hn, j, h⟩ := rowBlock_cover i
      exact ⟨⟨n, hn.trans_eq N_3.symm⟩, flush3_3 _,
        rect_emb_eq win3_3 ⟨n, hn.trans_eq N_3.symm⟩ j i (congrFun (idx_facts3 _) 3) h ▸ View.emb_mem_set _ j⟩

end Cert.KernelIdeal.Reg

end
-- ==== Proof.KI.AffineValue5.lean ====
import proofs.«418208_j66958540145299_1_alg».proof.Proof.KI.Affine5
import proofs.«418208_j66958540145299_1_alg».proof.Proof.KI.AffineValue

set_option maxRecDepth 16384

noncomputable section

namespace Cert.KernelIdeal.Reg

open Cert.KernelIdeal Cert.KernelIdeal.Gen
open Idealize.ShloMosaic Idealize.ShloMosaic.TcCoe
open Idealize.ShloMosaic.Pipeline (Dat Cfg Window)
open Idealize.ShloMosaic.ValueIdx

variable {F : FTy → Type} [FloatOps F]

variable (V : (c : Dev nD) → (b : Ref sig .tc) → Buf (Elt F) ((c : Thread nD τ).loc b))

abbrev widx5 (t : Fin cfg5.N) : Fin 4 → Fin 2 → ℕ := ![win5_0.index t, win5_1.index t, win5_2.index t, win5_3.index t]

theorem idx_facts5 : ∀ t : Fin cfg5.N, IdxFacts1 (widx5 t) t.val := (by decide +kernel : ∀ t : Fin grid5.N, _)

theorem final5_3 (c : Dev nD) :
    (dat5 V c).arrAt 3 cfg5.N = affineRows (V c main_v103_0) (V c main_v124) (V c main_v125) :=
  (dat5 V c).arrAt_eq_of_cover 3 _
    (fun t _ => by
      show (cfg5.win 3).cut (grid5.coords t) ((dat5 V c).after 3 t) = _
      rw [after5_3, out1_3_eq]
      exact funext fun j => pay1_blk (idx_facts5 t)
        (fun j i h => congrArg (V c main_v103_0) (rect_emb_eq win5_0 t j i rfl h))
        (fun j i h => congrArg (V c main_v124) (rect_emb_eq win5_1 t j i rfl h))
        (fun j i h => congrArg (V c main_v125) (rect_emb_eq win5_2 t j i rfl h))
        j _ (rect_emb_val_of win5_3 t j (congrFun (idx_facts5 t) 3)))
    fun i => by
      obtain ⟨n, hn, j, h⟩ := rowBlock_cover i
      exact ⟨⟨n, hn.trans_eq N_5.symm⟩, flush5_3 _,
        rect_emb_eq win5_3 ⟨n, hn.trans_eq N_5.symm⟩ j i (congrFun (idx_facts5 _) 3) h ▸ View.emb_mem_set _ j⟩

end Cert.KernelIdeal.Reg

end
-- ==== Proof.KI.SigmoidValue.lean ====
import proofs.«418208_j66958540145299_1_alg».proof.Proof.KI.Sigmoid6
import proofs.«418208_j66958540145299_1_alg».proof.Proof.KI.AffineRows
import proofs.«418208_j66958540145299_1_alg».proof.Proof.KI.MatmulAt
import proofs.«418208_j66958540145299_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe
open Idealize.ShloMosaic.Pipeline (Dat Cfg Window)
open Idealize.ShloMosaic.ValueIdx

open Cert.Spec (Arr sigG)

variable (V : (c : Dev nD) → (b : Ref sig .tc) → Buf (Elt Ideal) ((c : Thread nD τ).loc b))

theorem hz6 : (![0, 0] : Fin 2 → Nat) = fun _ => 0 := funext fun a => by fin_cases a <;> rfl

/-- The output layer's payload at row r: the logistic function of the two dot products plus the bias (a change of float format is the identity over the extended reals). -/
theorem pay6_apply (x0 x1 : Vec Ideal S5000x128 .f32) (x2 x3 : Vec Ideal S128x1 .f32) (x4 : Vec Ideal S1x1 .f32) (r : Fin 5000) :
    k6_pay1 x0 x1 x2 x3 x4 (ix2 r (0 : Fin 1))
      = Ideal.logistic ((∑ k : Fin 128, x0 (ix2 r k) * x2 (ix2 k (0 : Fin 1))) + (∑ k : Fin 128, x1 (ix2 r k) * x3 (ix2 k (0 : Fin 1)))
          + x4 (ix2 (0 : Fin 1) (0 : Fin 1))) := by
  unfold k6_pay1
  rw [shapeCast_self, shapeCast_self, shapeCast_self]
  show Ideal.logistic ((FloatOps.matmul (DotDims.plain 5000 128 1) none (truncf .bf16 x0 bitsLt_bf16_f32) (truncf .bf16 x2 bitsLt_bf16_f32)
          (constant (F := Ideal) ⟨2, ![5000, 1]⟩ .f32 0x00000000#32) (ix2 r (0 : Fin 1))
        + FloatOps.matmul (DotDims.plain 5000 128 1) none (truncf .bf16 x1 bitsLt_bf16_f32) (truncf .bf16 x3 bitsLt_bf16_f32)
          (constant (F := Ideal) ⟨2, ![5000, 1]⟩ .f32 0x00000000#32) (ix2 r (0 : Fin 1)))
      + broadcastTo S5000x1 x4 broadcasts_S1x1_S5000x1 (ix2 r (0 : Fin 1))) = _
  rw [matmul_plain_zero_apply, matmul_plain_zero_apply,
    broadcastTo_apply x4 broadcasts_S1x1_S5000x1 (ix2 r (0 : Fin 1)) (ix2 (0 : Fin 1) (0 : Fin 1)) (fun ax => by fin_cases ax <;> rfl)]
  rfl

/-- The six arrays' blocks at point n: row block n of the two inputs and of the result, block (0, 0) of the others. -/
abbrev IdxFacts6 (ix : Fin 6 → Fin 2 → ℕ) (n : ℕ) : Prop := ix = ![![n, 0], ![n, 0], ![0, 0], ![0, 0], ![0, 0], ![n, 0]]

/-- The output layer of the blocks of five arrays is the block of the arrays' output layer. -/
theorem pay6_blk {x0 x1 : Vec Ideal S5000x128 .f32} {x2 x3 : Vec Ideal S128x1 .f32} {x4 : Vec Ideal S1x1 .f32}
    {A H : Arr Ideal S100000x128 .f32} {wl wr : Arr Ideal S128x1 .f32} {b : Arr Ideal S1x1 .f32}
    {ix : Fin 6 → Fin 2 → ℕ} {n : ℕ} (e : IdxFacts6 ix n)
    (h0 : BlkOf x0 A (ix 0)) (h1 : BlkOf x1 H (ix 1)) (h2 : BlkOf x2 wl (ix 2)) (h3 : BlkOf x3 wr (ix 3)) (h4 : BlkOf x4 b (ix 4)) :
    BlkOf (k6_pay1 x0 x1 x2 x3 x4) (sigG A H wl wr b) ![n, 0] := by
  subst e
  intro j i h
  obtain ⟨r, u, rfl⟩ : ∃ (r : Fin 5000) (u : Fin 1), j = ix2 r u := ⟨j 0, j 1, eq_ix2 j⟩
  obtain rfl : u = 0 := Subsingleton.elim _ _
  have hr : (i 0).val = n * 5000 + r.val := h 0
  rw [pay6_apply]
  have a0 : ∀ k : Fin 128, x0 (ix2 r k) = A (ix2 (i 0) k) := fun k => h0 _ _ (Fin.forall_fin_two.mpr
    ⟨by show (i 0).val = n * 5000 + r.val; omega, by show k.val = 0 * 128 + k.val; omega⟩)
  have a1 : ∀ k : Fin 128, x1 (ix2 r k) = H (ix2 (i 0) k) := fun k => h1 _ _ (Fin.forall_fin_two.mpr
    ⟨by show (i 0).val = n * 5000 + r.val; omega, by show k.val = 0 * 128 + k.val; omega⟩)
  have a2 : ∀ k : Fin 128, x2 (ix2 k (0 : Fin 1)) = wl (ix2 k (0 : Fin 1)) := fun k => h2 _ _ (at_block_zero _)
  have a3 : ∀ k : Fin 128, x3 (ix2 k (0 : Fin 1)) = wr (ix2 k (0 : Fin 1)) := fun k => h3 _ _ (at_block_zero _)
  have a4 : x4 (ix2 (0 : Fin 1) (0 : Fin 1)) = b (ix2 (0 : Fin 1) (0 : Fin 1)) := h4 _ _ (at_block_zero _)
  simp only [a0, a1, a2, a3, a4]
  rfl

abbrev widx6 (t : Fin cfg6.N) : Fin 6 → Fin 2 → ℕ :=
  ![win6_0.index t, win6_1.index t, win6_2.index t, win6_3.index t, win6_4.index t, win6_5.index t]

theorem idx_facts6 : ∀ t : Fin cfg6.N, IdxFacts6 (widx6 t) t.val := (by decide +kernel : ∀ t : Fin grid6.N, _)

/-- The result column after the region: the output layer of the two activation arrays, the weight columns and the bias as the region finds them. -/
theorem final6_5 (c : Dev nD) :
    (dat6 V c).arrAt 5 cfg6.N = sigG (V c main_v132) (V c main_v126) (V c main_arg7) (V c main_arg8) (V c main_v133) :=
  (dat6 V c).arrAt_eq_of_cover 5 _
    (fun t _ => by
      show (cfg6.win 5).cut (grid6.coords t) ((dat6 V c).after 5 t) = _
      rw [after6_5]
      unfold out6_5
      rw [View.canon_unit_zero hz6, View.ld_unit_zero (S := S5000x128) hz6, View.ld_unit_zero (S := S5000x128) hz6,
        View.ld_unit_zero (S := S128x1) hz6, View.ld_unit_zero (S := S128x1) hz6, View.ld_unit_zero (S := S1x1) hz6]
      exact funext fun j => pay6_blk (idx_facts6 t)
        (fun j i h => congrArg (V c main_v132) (rect_emb_eq win6_0 t j i rfl h)) (fun j i h => congrArg (V c main_v126) (rect_emb_eq win6_1 t j i rfl h))
        (fun j i h => congrArg (V c main_arg7) (rect_emb_eq win6_2 t j i rfl h)) (fun j i h => congrArg (V c main_arg8) (rect_emb_eq win6_3 t j i rfl h))
        (fun j i h => congrArg (V c main_v133) (rect_emb_eq win6_4 t j i rfl h))
        j _ (rect_emb_val_of win6_5 t j (congrFun (idx_facts6 t) 5)))
    fun i => by
      obtain ⟨n, hn, j, h⟩ := rowBlock_cover i
      exact ⟨⟨n, hn.trans_eq N_6.symm⟩, flush6_5 _,
        rect_emb_eq win6_5 ⟨n, hn.trans_eq N_6.symm⟩ j i (congrFun (idx_facts6 _) 5) h ▸ View.emb_mem_set _ j⟩

end Cert.KernelIdeal.Reg

end
-- ==== Proof.KI.Thread.lean ====
import proofs.«418208_j66958540145299_1_alg».proof.Proof.KI.Main
import proofs.«418208_j66958540145299_1_alg».proof.Proof.KI.HostReads
import proofs.«418208_j66958540145299_1_alg».proof.Proof.KI.Kept
import proofs.«418208_j66958540145299_1_alg».proof.Proof.KI.StatsValue
import proofs.«418208_j66958540145299_1_alg».proof.Proof.KI.StatsValue2
import proofs.«418208_j66958540145299_1_alg».proof.Proof.KI.StatsValue4
import proofs.«418208_j66958540145299_1_alg».proof.Proof.KI.AffineValue
import proofs.«418208_j66958540145299_1_alg».proof.Proof.KI.AffineValue3
import proofs.«418208_j66958540145299_1_alg».proof.Proof.KI.AffineValue5
import proofs.«418208_j66958540145299_1_alg».proof.Proof.KI.SigmoidValue

noncomputable section

namespace Cert.KernelIdeal.Reg

open Cert.KernelIdeal Cert.KernelIdeal.Gen Cert.Spec
open Idealize.ShloMosaic Idealize.ShloMosaic.TcCoe

variable (m : (ℓ : Loc nD τ sig) → Buf (Elt Ideal) ℓ) (ρ : Dev nD → PrngReg) (c : Dev nD)

/-- Argument b as core c holds it at launch. -/
abbrev arg (b : Ref sig .tc) := m ((c : Thread nD τ).loc b)
abbrev eS := srcOf (arg m c main_arg1)
abbrev eD := dstOf (arg m c main_arg1)
abbrev eIv := invDegOf (eD m c)
/-- The dense stage of a layer on features h, its parameters cut from the stacked arguments by M and R. -/
abbrev lin (h : Arr Ideal S100000x128 .f32) (M : Arr Ideal S3x128x128 .f32 → Arr Ideal S128x128 .f32)
    (R : Arr Ideal S3x128 .f32 → Arr Ideal S128 .f32) :=
  linG (sumTo (rowsK h (eS m c)) (eD m c) (eIv m c)) h (M (arg m c main_arg2)) (M (arg m c main_arg3)) (asRow (R (arg m c main_arg4)))
/-- The layer itself. -/
abbrev lay (h : Arr Ideal S100000x128 .f32) (M : Arr Ideal S3x128x128 .f32 → Arr Ideal S128x128 .f32)
    (R : Arr Ideal S3x128 .f32 → Arr Ideal S128 .f32) :=
  layerK h (eS m c) (eD m c) (eIv m c) (M (arg m c main_arg2)) (M (arg m c main_arg3)) (R (arg m c main_arg4)) (R (arg m c main_arg5))
    (R (arg m c main_arg6))
abbrev hid1 := lay m c (arg m c main_arg0) mat0 row0
abbrev hid2 := lay m c (hid1 m c) mat1 row1
abbrev hid3 := lay m c (hid2 m c) mat2 row2

/-- The opening host operations leave the edge list's two rows and the inverse degrees. -/
theorem at5_v1 : W5 m ρ c main_v1 = eS m c := open_v1 _
theorem at5_v3 : W5 m ρ c main_v3 = eD m c := open_v3 _
theorem at5_v15 : W5 m ρ c main_v15 = eIv m c := open_v15 _

/-- Region 0 leaves the dense stage of layer 1 … -/
theorem at6_v29_0 : W6 m ρ c main_v29_0 = lin m c (arg m c main_arg0) mat0 row0 :=
  (W6_arr m ρ c 5).trans ((final0_5 _ c).trans (in0 _ linG))
theorem at6_v29_1 : W6 m ρ c main_v29_1 = statsG (lin m c (arg m c main_arg0) mat0 row0) :=
  (W6_arr m ρ c 6).trans ((final0_6 _ c).trans (congrArg statsG (in0 _ linG)))
/-- Region 1 leaves the layer's result. -/
theorem at8_v52 : W8 m ρ c main_v52 = hid1 m c := by
  refine (W8_arr m ρ c 3).trans ((final1_3 _ c).trans ((in1 _ affineRows).trans ?_))
  rw [at6_v29_0, at6_v29_1, (keeps m ρ c main_arg5 0 6 (by decide) : W6 m ρ c _ = _), (keeps m ρ c main_arg6 0 6 (by decide) : W6 m ρ c _ = _)]
  rfl

/-- Region 2 leaves the dense stage of layer 2 … -/
theorem at11_v66_0 : W11 m ρ c main_v66_0 = lin m c (hid1 m c) mat1 row1 := by
  refine (W11_arr m ρ c 5).trans ((final2_5 _ c).trans ((in2 _ linG).trans ?_))
  rw [at8_v52, (keeps m ρ c main_v1 5 3 (by decide) : W8 m ρ c _ = _), (keeps m ρ c main_v3 5 3 (by decide) : W8 m ρ c _ = _), (keeps m ρ c main_v15 5 3 (by decide) : W8 m ρ c _ = _), at5_v1, at5_v3, at5_v15,
    (keeps m ρ c main_arg2 0 8 (by decide) : W8 m ρ c _ = _), (keeps m ρ c main_arg3 0 8 (by decide) : W8 m ρ c _ = _), (keeps m ρ c main_arg4 0 8 (by decide) : W8 m ρ c _ = _)]
theorem at11_v66_1 : W11 m ρ c main_v66_1 = statsG (lin m c (hid1 m c) mat1 row1) :=
  (W11_arr m ρ c 6).trans ((final2_6 _ c).trans
    (congrArg statsG (((W11_arr m ρ c 5).trans (final2_5 _ c)).symm.trans (at11_v66_0 m ρ c))))
theorem at13_v89 : W13 m ρ c main_v89 = hid2 m c := by
  refine (W13_arr m ρ c 3).trans ((final3_3 _ c).trans ((in3 _ affineRows).trans ?_))
  rw [at11_v66_0, at11_v66_1, (keeps m ρ c main_arg5 0 11 (by decide) : W11 m ρ c _ = _), (keeps m ρ c main_arg6 0 11 (by decide) : W11 m ρ c _ = _)]
  rfl

/-- Region 4 leaves the dense stage of layer 3 … -/
theorem at16_v103_0 : W16 m ρ c main_v103_0 = lin m c (hid2 m c) mat2 row2 := by
  refine (W16_arr m ρ c 5).trans ((final4_5 _ c).trans ((in4 _ linG).trans ?_))
  rw [at13_v89, (keeps m ρ c main_v1 5 8 (by decide) : W13 m ρ c _ = _), (keeps m ρ c main_v3 5 8 (by decide) : W13 m ρ c _ = _), (keeps m ρ c main_v15 5 8 (by decide) : W13 m ρ c _ = _), at5_v1, at5_v3, at5_v15,
    (keeps m ρ c main_arg2 0 13 (by decide) : W13 m ρ c _ = _), (keeps m ρ c main_arg3 0 13 (by decide) : W13 m ρ c _ = _), (keeps m ρ c main_arg4 0 13 (by decide) : W13 m ρ c _ = _)]
theorem at16_v103_1 : W16 m ρ c main_v103_1 = statsG (lin m c (hid2 m c) mat2 row2) :=
  (W16_arr m ρ c 6).trans ((final4_6 _ c).trans
    (congrArg statsG (((W16_arr m ρ c 5).trans (final4_5 _ c)).symm.trans (at16_v103_0 m ρ c))))
theorem at18_v126 : W18 m ρ c main_v126 = hid3 m c := by
  refine (W18_arr m ρ c 3).trans ((final5_3 _ c).trans ((in5 _ affineRows).trans ?_))
  rw [at16_v103_0, at16_v103_1, (keeps m ρ c main_arg5 0 16 (by decide) : W16 m ρ c _ = _), (keeps m ρ c main_arg6 0 16 (by decide) : W16 m ρ c _ = _)]
  rfl

/-- The kernel program's result array is the specification's function of the ten arguments. -/
theorem result_eq : W21 m ρ c main_v134
    = kerMain (arg m c main_arg0) (arg m c main_arg1) (arg m c main_arg2) (arg m c main_arg3) (arg m c main_arg4) (arg m c main_arg5)
        (arg m c main_arg6) (arg m c main_arg7) (arg m c main_arg8) (arg m c main_arg9) := by
  refine (W21_arr m ρ c 5).trans ((final6_5 _ c).trans ((in6 _ sigG).trans ?_))
  rw [at18_v126, (keeps m ρ c main_v1 5 13 (by decide) : W18 m ρ c _ = _), (keeps m ρ c main_v3 5 13 (by decide) : W18 m ρ c _ = _), (keeps m ρ c main_v15 5 13 (by decide) : W18 m ρ c _ = _), at5_v1, at5_v3, at5_v15,
    (keeps m ρ c main_arg7 0 18 (by decide) : W18 m ρ c _ = _), (keeps m ρ c main_arg8 0 18 (by decide) : W18 m ρ c _ = _), (keeps m ρ c main_arg9 0 18 (by decide) : W18 m ρ c _ = _)]
  rfl

end Cert.KernelIdeal.Reg

end
-- ==== Proof.Ref.OpsCut.lean ====
import proofs.«418208_j66958540145299_1_alg».proof.Proof.Ref.RunOps

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! The reference's 245 operations in five consecutive stretches: the edge list and inverse degrees (24 operations),
    one hidden layer each (64 operations, three times), the output layer (29). -/

abbrev opsA : List (HloOp τ sig (Elt F)) := ops.take 24
abbrev opsB : List (HloOp τ sig (Elt F)) := (ops.drop 24).take 64
abbrev opsC : List (HloOp τ sig (Elt F)) := (ops.drop 88).take 64
abbrev opsD : List (HloOp τ sig (Elt F)) := (ops.drop 152).take 64
abbrev opsE : List (HloOp τ sig (Elt F)) := ops.drop 216

theorem ops_cut : (ops : List (HloOp τ sig (Elt F))) = opsA ++ opsB ++ opsC ++ opsD ++ opsE := rfl

end Cert.ReferenceIdeal.RefRun

end
-- ==== Proof.Ref.Run.lean ====
import proofs.«418208_j66958540145299_1_alg».proof.Proof.Ref.RunOps
import proofs.«418208_j66958540145299_1_alg».proof.Proof.Ref.OpsCut
import proofs.«418208_j66958540145299_1_alg».proof.Proof.Spec
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.Value Cert.Spec
open Idealize.ShloMosaic Idealize.ShloMosaic.TcCoe Idealize.SL.Sem Idealize.ShloMosaic.StableHlo

variable {F : FTy → Type} [FloatOps F]

structure SameArgs (V W : Valuation τ sig (Elt F)) : Prop where
  a0 : W main_arg0 = V main_arg0
  a1 : W main_arg1 = V main_arg1
  a2 : W main_arg2 = V main_arg2
  a3 : W main_arg3 = V main_arg3
  a4 : W main_arg4 = V main_arg4
  a5 : W main_arg5 = V main_arg5
  a6 : W main_arg6 = V main_arg6
  a7 : W main_arg7 = V main_arg7
  a8 : W main_arg8 = V main_arg8
  a9 : W main_arg9 = V main_arg9

structure SameEdges (V W : Valuation τ sig (Elt F)) : Prop where
  src : W main_v1 = V main_v1
  dst : W main_v3 = V main_v3
  inv : W main_v15 = V main_v15

variable (V : Valuation τ sig (Elt F))

theorem A_src : after opsA V main_v1 = srcOf (V main_arg1) := by
  dsimp only [opsA, ops, List.drop, List.take]
  after_results_simp
  rfl

theorem A_dst : after opsA V main_v3 = dstOf (V main_arg1) := by
  dsimp only [opsA, ops, List.drop, List.take]
  after_results_simp
  rfl

theorem A_inv : after opsA V main_v15 = invDegOf (dstOf (V main_arg1)) := by
  dsimp only [opsA, ops, List.drop, List.take]
  after_results_simp
  rfl

theorem A_args : SameArgs V (after opsA V) :=
  by dsimp only [opsA, ops, List.drop, List.take]; constructor <;> after_results_simp

theorem B_out : after opsB V main_v69
    = layerR (V main_arg0) (V main_v1) (V main_v3) (V main_v15) (mat0 (V main_arg2)) (mat0 (V main_arg3))
        (row0 (V main_arg4)) (row0 (V main_arg5)) (row0 (V main_arg6)) := by
  dsimp only [opsB, ops, List.drop, List.take]
  after_results_simp
  rfl

set_option maxHeartbeats 1600000 in
theorem B_args : SameArgs V (after opsB V) :=
  by dsimp only [opsB, ops, List.drop, List.take]; constructor <;> after_results_simp

theorem B_edges : SameEdges V (after opsB V) :=
  by dsimp only [opsB, ops, List.drop, List.take]; constructor <;> after_results_simp

theorem C_out : after opsC V main_v123
    = layerR (V main_v69) (V main_v1) (V main_v3) (V main_v15) (mat1 (V main_arg2)) (mat1 (V main_arg3))
        (row1 (V main_arg4)) (row1 (V main_arg5)) (row1 (V main_arg6)) := by
  dsimp only [opsC, ops, List.drop, List.take]
  after_results_simp
  rfl

set_option maxHeartbeats 1600000 in
theorem C_args : SameArgs V (after opsC V) :=
  by dsimp only [opsC, ops, List.drop, List.take]; constructor <;> after_results_simp

theorem C_edges : SameEdges V (after opsC V) :=
  by dsimp only [opsC, ops, List.drop, List.take]; constructor <;> after_results_simp

theorem D_out : after opsD V main_v177
    = layerR (V main_v123) (V main_v1) (V main_v3) (V main_v15) (mat2 (V main_arg2)) (mat2 (V main_arg3))
        (row2 (V main_arg4)) (row2 (V main_arg5)) (row2 (V main_arg6)) := by
  dsimp only [opsD, ops, List.drop, List.take]
  after_results_simp
  rfl

set_option maxHeartbeats 1600000 in
theorem D_args : SameArgs V (after opsD V) :=
  by dsimp only [opsD, ops, List.drop, List.take]; constructor <;> after_results_simp

theorem D_edges : SameEdges V (after opsD V) :=
  by dsimp only [opsD, ops, List.drop, List.take]; constructor <;> after_results_simp

theorem E_out : after opsE V main_v201
    = outR (sumTo (rowsR (V main_v177) (V main_v1)) (V main_v3) (V main_v15)) (V main_v177)
        (V main_arg7) (V main_arg8) (V main_arg9) := by
  dsimp only [opsE, ops, List.drop, List.take]
  after_results_simp
  rfl

set_option maxHeartbeats 1600000 in
theorem E_args : SameArgs V (after opsE V) :=
  by dsimp only [opsE, ops, List.drop, List.take]; constructor <;> after_results_simp

theorem after_ops : after ops V = after opsE (after opsD (after opsC (after opsB (after opsA V)))) := by
  rw [ops_cut, after_append, after_append, after_append, after_append]

theorem out_eq : after ops V main_v201
    = refMain (V main_arg0) (V main_arg1) (V main_arg2) (V main_arg3) (V main_arg4) (V main_arg5) (V main_arg6)
        (V main_arg7) (V main_arg8) (V main_arg9) := by
  rw [after_ops, E_out]
  rw [D_out, (D_edges _).src, (D_edges _).dst, (D_edges _).inv, (D_args _).a7, (D_args _).a8, (D_args _).a9]
  rw [C_out, (C_edges _).src, (C_edges _).dst, (C_edges _).inv, (C_args _).a2, (C_args _).a3, (C_args _).a4,
    (C_args _).a5, (C_args _).a6, (C_args _).a7, (C_args _).a8, (C_args _).a9]
  rw [B_out, (B_edges _).src, (B_edges _).dst, (B_edges _).inv, (B_args _).a2, (B_args _).a3, (B_args _).a4,
    (B_args _).a5, (B_args _).a6, (B_args _).a7, (B_args _).a8, (B_args _).a9]
  rw [A_src, A_dst, A_inv, (A_args V).a0, (A_args V).a2, (A_args V).a3, (A_args V).a4, (A_args V).a5, (A_args V).a6,
    (A_args V).a7, (A_args V).a8, (A_args V).a9]
  rfl

theorem SameArgs.trans {V W X : Valuation τ sig (Elt F)} (h : SameArgs V W) (k : SameArgs W X) : SameArgs V X :=
  ⟨k.a0.trans h.a0, k.a1.trans h.a1, k.a2.trans h.a2, k.a3.trans h.a3, k.a4.trans h.a4, k.a5.trans h.a5, k.a6.trans h.a6,
   k.a7.trans h.a7, k.a8.trans h.a8, k.a9.trans h.a9⟩

theorem args_eq : SameArgs V (after ops V) := by
  rw [after_ops]
  exact ((((A_args V).trans (B_args _)).trans (C_args _)).trans (D_args _)).trans (E_args _)

set_option maxRecDepth 8192 in
set_option maxHeartbeats 8000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v201)
          = refMain (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v201).trans (out_eq (launchContents m c)),
       (h c main_arg0).trans (args_eq (launchContents m c)).a0, (h c main_arg1).trans (args_eq (launchContents m c)).a1,
       (h c main_arg2).trans (args_eq (launchContents m c)).a2, (h c main_arg3).trans (args_eq (launchContents m c)).a3,
       (h c main_arg4).trans (args_eq (launchContents m c)).a4, (h c main_arg5).trans (args_eq (launchContents m c)).a5,
       (h c main_arg6).trans (args_eq (launchContents m c)).a6, (h c main_arg7).trans (args_eq (launchContents m c)).a7,
       (h c main_arg8).trans (args_eq (launchContents m c)).a8, (h c main_arg9).trans (args_eq (launchContents m c)).a9⟩)
    (run_seq scopedRefs_eq scopedSems_eq defs main (fun _ => ops) main_eq (fun _ => ops_sub) m ρ)

end Cert.ReferenceIdeal.RefRun

end
-- ==== Proof.RealArr.lean ====
import proofs.«418208_j66958540145299_1_alg».proof.Proof.Spec

noncomputable section

namespace Cert.Spec

open Idealize.ShloMosaic

/-- x ≠ ±∞. -/
def Re (x : EReal) : Prop := ∃ r : ℝ, x = r

def IsReal {s : Shape} (x : Arr Ideal s .f32) : Prop := ∀ i, Re (x i)

def SrcInRange (s : Arr Ideal Cert.ReferenceIdeal.S1600000 .i32) : Prop := ∀ e, -100000 ≤ (s e).toInt ∧ (s e).toInt < 100000

end Cert.Spec

end
-- ==== Proof.PreRead.lean ====
import proofs.«418208_j66958540145299_1_alg».proof.Proof.RealArr
import proofs.«418208_j66958540145299_1_alg».proof.Proof.Gen.Pre_finite_inputs
import Idealize.ShloMosaic.Lib.ReduceAll
import Idealize.ShloMosaic.Lib.StableHlo.Predicate

noncomputable section

namespace Cert.PreRead

open Idealize.ShloMosaic Idealize.ShloMosaic.ValueIdx Cert.Spec

instance : Subsingleton (⟨0, ![]⟩ : Shape).Idx := ⟨fun a b => funext fun d => d.elim0⟩

/-- |x| < ∞ leaves only the real case. -/
theorem real_of_abs_lt (x : EReal)
    (h : Ideal.cmp .olt (max x (-x)) (Ideal.ofBits .f32 0x7F800000#32) = 1#1) : Re x := by
  have htop : Ideal.ofBits .f32 0x7F800000#32 = (⊤ : EReal) := by simp [Ideal.ofBits, Ideal.ieee]
  rw [htop] at h
  simp only [Ideal.cmp, StableHlo.Predicate.ofBool_eq_one_iff, decide_eq_true_eq] at h
  induction x using EReal.rec with
  | bot => simp at h
  | coe r => exact ⟨r, rfl⟩
  | top => simp at h

theorem isReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (h : Host.reduce IntOp.andi (cmpf .olt (Host.absf x) (broadcastInDim s ![] hb (constant ⟨0, ![]⟩ .f32 0x7F800000#32)))
      (constantI ⟨0, ![]⟩ 1 1#1) hr h0 ix0 = 1#1) : IsReal x :=
  fun i => real_of_abs_lt (x i) (Host.reduce_andi_all _ _ hr h0 _ h i)

/-- For −100000 ≤ a < 100000, a mod 100000 lies in [0, 99999], and a + 100000 does not overflow 32 bits. -/
theorem wrap_inRange (a : BitVec 32) (h1 : -100000 ≤ a.toInt) (h2 : a.toInt < 100000) :
    IntOp.cmpi .sge (Scalar.select (IntOp.cmpi .slt a 0#32) (IntOp.addi a 100000#32) a) 0#32 = 1#1 ∧
    IntOp.cmpi .sle (Scalar.select (IntOp.cmpi .slt a 0#32) (IntOp.addi a 100000#32) a) 99999#32 = 1#1 := by
  have t0 : (0#32 : BitVec 32).toInt = 0 := by decide
  have t1 : (99999#32 : BitVec 32).toInt = 99999 := by decide
  have t2 : (100000#32 : BitVec 32).toInt = 100000 := by decide
  rw [IntOp.cmpi_sge, IntOp.cmpi_sle, t0, t1]
  by_cases hneg : a.toInt < 0
  · have hw : (IntOp.addi a 100000#32).toInt = a.toInt + 100000 := by
      show (a + 100000#32).toInt = _
      rw [BitVec.toInt_add, t2]; exact Int.bmod_eq_of_le_mul_two (by omega) (by omega)
    rw [IntOp.cmpi_slt.2 (by rwa [t0]), select_one, hw]; omega
  · rw [eq_zero_of_ne_one (mt IntOp.cmpi_slt.1 (by rwa [t0])), select_zero]; omega

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_ones f l (fun n hn => h n (List.mem_cons_of_mem _ hn))

/-- The conjunction of all-true is true. -/
theorem reduce_andi_ones {s t u : Shape} {axes : List (Fin s.rank)} (x : s.Idx → BitVec 1) (hr : s.ReducesTo axes t)
    (hu : 0 < u.numel) (hx : ∀ i, x i = 1#1) (j : t.Idx) :
    Host.reduce IntOp.andi x (constantI u 1 1#1) hr hu j = 1#1 := by
  rw [Host.reduce_eq_foldl]
  exact foldl_andi_ones x _ (fun n _ => hx n)

/-- In-range source indices pass the bounds test at every edge. -/
theorem mask_true (s : Arr Ideal Cert.ReferenceIdeal.S1600000 .i32) (hs : SrcInRange s) :
    maskK (F := Ideal) s = fun _ => 1#1 := by
  funext e
  unfold maskK
  refine reduce_andi_ones _ _ _ (fun i => ?_) e
  obtain ⟨e', he'⟩ : ∃ e', startIdx (F := Ideal) s i
      = Scalar.select (IntOp.cmpi .slt (s e') 0#32) (IntOp.addi (s e') 100000#32) (s e') := ⟨_, rfl⟩
  show IntOp.andi (IntOp.cmpi .sge (startIdx (F := Ideal) s i) 0#32) (IntOp.cmpi .sle (startIdx (F := Ideal) s i) 99999#32) = 1#1
  rw [he']
  exact IntOp.andi_eq_one.2 (wrap_inRange (s e') (hs e').1 (hs e').2)

theorem rowsK_eq_rowsR (h : Arr Ideal Cert.ReferenceIdeal.S100000x128 .f32) (s : Arr Ideal Cert.ReferenceIdeal.S1600000 .i32)
    (hs : SrcInRange s) : rowsK h s = rowsR h s := by
  unfold rowsK
  rw [mask_true s hs]
  funext i
  exact select_one _ _

/-- The precondition's ten conjuncts: the nine float inputs are finite, the source indices are in range. -/
theorem of_pre (x : FVec Ideal Cert.Pre_finite_inputs.S100000x128 .f32) (ei : IVec Cert.Pre_finite_inputs.S2x1600000 32)
    (Wl Wr : FVec Ideal Cert.Pre_finite_inputs.S3x128x128 .f32) (b g be : FVec Ideal Cert.Pre_finite_inputs.S3x128 .f32)
    (wlo wro : FVec Ideal Cert.Pre_finite_inputs.S128x1 .f32) (bo : FVec Ideal Cert.Pre_finite_inputs.S1 .f32)
    (h : Cert.Pre_finite_inputs.fn (F := Ideal) x ei Wl Wr b g be wlo wro bo = fun _ => 1#1) :
    IsReal x ∧ IsReal Wl ∧ IsReal Wr ∧ IsReal b ∧ IsReal g ∧ IsReal be ∧ IsReal wlo ∧ IsReal wro ∧ IsReal bo
      ∧ SrcInRange (srcOf ei) := by
  have h0 := congrFun h ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨h3, h7⟩, h12⟩, h17⟩, h22⟩, h27⟩, h32⟩, h37⟩, h42⟩, h53⟩ := h0
  refine ⟨isReal_of_all x _ _ _ h3, isReal_of_all Wl _ _ _ h7, isReal_of_all Wr _ _ _ h12, isReal_of_all b _ _ _ h17,
    isReal_of_all g _ _ _ h22, isReal_of_all be _ _ _ h27, isReal_of_all wlo _ _ _ h32, isReal_of_all wro _ _ _ h37,
    isReal_of_all bo _ _ _ h42, fun e => ?_⟩
  obtain ⟨ha, hb⟩ := IntOp.andi_eq_one.1 (Host.reduce_andi_all _ _ _ _ _ h53 e)
  exact ⟨IntOp.cmpi_sge.1 ha, IntOp.cmpi_slt.1 hb⟩

end Cert.PreRead

end
-- ==== Proof.Linear.lean ====
import proofs.«418208_j66958540145299_1_alg».proof.Proof.RealArr
import Idealize.ShloMosaic.Lib.IdealHost
import Idealize.ShloMosaic.Lib.ValueLayout
import Idealize.ShloMosaic.Lib.StackMember

noncomputable section

namespace Cert.Spec

open Cert.ReferenceIdeal Cert.ReferenceIdeal.Gen Idealize.ShloMosaic Idealize.ShloMosaic.TcCoe Idealize.ShloMosaic.ValueIdx
open Idealize.ShloMosaic.StackMember

theorem Re.add {x y : EReal} (hx : Re x) (hy : Re y) : Re (x + y) := by
  obtain ⟨r, rfl⟩ := hx; obtain ⟨q, rfl⟩ := hy; exact ⟨r + q, rfl⟩

theorem Re.mul {x y : EReal} (hx : Re x) (hy : Re y) : Re (x * y) := by
  obtain ⟨r, rfl⟩ := hx; obtain ⟨q, rfl⟩ := hy; exact ⟨r * q, (EReal.coe_mul r q).symm⟩

theorem Re.max {x y : EReal} (hx : Re x) (hy : Re y) : Re (max x y) := by
  rcases max_choice x y with h | h <;> rw [h] <;> assumption

theorem Re.select {c : BitVec 1} {x y : EReal} (hx : Re x) (hy : Re y) : Re (Scalar.select c x y) := by
  unfold Scalar.select; split <;> assumption

theorem Re.sum {ι : Type} (s : Finset ι) (f : ι → EReal) (hf : ∀ i ∈ s, Re (f i)) : Re (∑ i ∈ s, f i) :=
  Finset.sum_induction f Re (fun _ _ => Re.add) ⟨0, rfl⟩ hf

theorem Re.zero : Re (Ideal.ofBits .f32 0x00000000#32) := ⟨0, Ideal.ofBits_zero_f32⟩

/-- 1 / max (x, 1) is real, since max (x, 1) ≥ 1 > 0. -/
theorem re_inv_max_one {x : EReal} (hx : Re x) :
    Re (Ideal.div (Ideal.ofBits .f32 0x3F800000#32) (max x (Ideal.ofBits .f32 0x3F800000#32))) := by
  obtain ⟨r, rfl⟩ := hx
  rw [Ideal.ofBits_one_f32, ← EReal.coe_one, ← EReal.coe_strictMono.monotone.map_max,
    Ideal.div_coe (lt_max_of_lt_right one_pos).ne', ← EReal.coe_mul]
  exact ⟨_, rfl⟩

theorem rowsOf_apply (b : Arr Ideal S128 .f32) (p : Fin 100000) (q : Fin 128) : rowsOf b (ix2 p q) = b (ix1 q) := by
  unfold rowsOf
  refine (broadcastInDim_apply _ _ _ (ix2 p q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

theorem asRow_apply (b : Arr Ideal S128 .f32) (u : Fin 1) (q : Fin 128) : asRow b (ix2 u q) = b (ix1 q) :=
  shapeCast_a_1a_apply b _ u q

theorem linR_eq_linG (a h : Arr Ideal S100000x128 .f32) (wl wr : Arr Ideal S128x128 .f32) (b : Arr Ideal S128 .f32) :
    linR a h wl wr b = linG a h wl wr (asRow b) := by
  funext i
  obtain ⟨p, q, rfl⟩ : ∃ (p : Fin 100000) (q : Fin 128), i = ix2 p q := ⟨i 0, i 1, eq_ix2 i⟩
  unfold linR linG
  rw [maximumf_apply, addf_apply, addf_apply, rowsOf_apply, asRow_apply]
  erw [dotGeneral_plain_apply, dotGeneral_plain_apply]
  rfl

theorem cellsOf_apply (b : Arr Ideal S1 .f32) (p : Fin 100000) (u : Fin 1) :
    broadcastInDim S100000x1 ![0, 1] bcast_S1x1_S100000x1_0_1 (broadcastInDim S1x1 ![1] bcast_S1_S1x1_1 b) (ix2 p u) = b (ix1 (0 : Fin 1)) := by
  refine (broadcastInDim_apply _ _ _ (ix2 p u) (ix2 (0 : Fin 1) (0 : Fin 1)) fun a => ?_).trans
    (broadcastInDim_apply _ _ _ (ix2 (0 : Fin 1) (0 : Fin 1)) (ix1 (0 : Fin 1)) fun a => ?_)
  · match a with
    | ⟨0, _⟩ => rfl
    | ⟨1, _⟩ => rfl
  · match a with
    | ⟨0, _⟩ => rfl

theorem outR_eq_sigG (a h : Arr Ideal S100000x128 .f32) (wl wr : Arr Ideal S128x1 .f32) (b : Arr Ideal S1 .f32) :
    outR a h wl wr b = sigG a h wl wr (asCell b) := by
  funext i
  obtain ⟨p, u, rfl⟩ : ∃ (p : Fin 100000) (u : Fin 1), i = ix2 p u := ⟨i 0, i 1, eq_ix2 i⟩
  obtain rfl : u = 0 := Subsingleton.elim _ _
  show Ideal.div (Ideal.ofBits .f32 0x3F800000#32) (Ideal.ofBits .f32 0x3F800000#32 + Ideal.exp (-(_ + _ + _)))
    = Ideal.div 1 (1 + Ideal.exp (-(_ + _ + shapeCast _ b _ (ix2 0 0))))
  rw [Ideal.ofBits_one_f32, shapeCast_a_1a_apply]
  erw [dotGeneral_plain_apply, dotGeneral_plain_apply, cellsOf_apply]

/-- A scatter-add entry is the operand's entry plus a finite sum of update entries. -/
theorem re_scatterAdd {s si su : Shape} (d : ScatterDims s si su) {x : FVec Ideal s .f32} (idx : IVec si 32)
    {u : FVec Ideal su .f32} (hx : ∀ i, Re (x i)) (hu : ∀ j, Re (u j)) (i : s.Idx) : Re (Host.scatterAdd d x idx u i) := by
  show Re (Ideal.hostScatterAdd d x idx u i)
  unfold Ideal.hostScatterAdd
  exact (hx i).add (Re.sum _ _ fun j _ => hu j)

theorem isReal_degOf (d : Arr Ideal S1600000 .i32) : IsReal (degOf (F := Ideal) d) := by
  intro i
  unfold degOf
  exact re_scatterAdd _ _ (fun _ => Re.zero) (fun _ => ⟨1, Ideal.ofBits_one_f32⟩) i

theorem isReal_invDegOf (d : Arr Ideal S1600000 .i32) : IsReal (invDegOf (F := Ideal) d) := by
  intro i
  unfold invDegOf broadcastInDim
  rw [select_apply, hostDivf_apply, maximumf_apply]
  exact Re.select (re_inv_max_one (isReal_degOf d _)) Re.zero

theorem isReal_sumTo {g : Arr Ideal S1600000x128 .f32} {d : Arr Ideal S1600000 .i32} {iv : Arr Ideal S100000x1 .f32}
    (hg : IsReal g) (hiv : IsReal iv) : IsReal (sumTo g d iv) := by
  intro i
  unfold sumTo
  rw [mulf_apply]
  exact (re_scatterAdd _ _ (fun _ => Re.zero) hg i).mul (hiv _)

theorem isReal_linG {a h : Arr Ideal S100000x128 .f32} {wl wr : Arr Ideal S128x128 .f32} {b : Arr Ideal S1x128 .f32}
    (ha : IsReal a) (hh : IsReal h) (hwl : IsReal wl) (hwr : IsReal wr) (hb : IsReal b) : IsReal (linG a h wl wr b) :=
  fun _ => (((Re.sum _ _ fun _ _ => (ha _).mul (hwl _)).add (Re.sum _ _ fun _ _ => (hh _).mul (hwr _))).add (hb _)).max Re.zero

end Cert.Spec

end
-- ==== Proof.BatchNorm.lean ====
import proofs.«418208_j66958540145299_1_alg».proof.Proof.Linear

noncomputable section

namespace Cert.Spec

open Cert.ReferenceIdeal Cert.ReferenceIdeal.Gen Idealize.ShloMosaic Idealize.ShloMosaic.TcCoe Idealize.ShloMosaic.ValueIdx

theorem ofBits_rows : Ideal.ofBits .f32 0x47C35000#32 = ((100000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

theorem coe_sum {ι : Type} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

theorem colSum_apply (x : Arr Ideal S100000x128 .f32) (c : Fin 128) :
    Host.reduceAdd (F := Ideal) x (constant S_ .f32 0x00000000#32) reducesTo_S100000x128_S128_d0 h_S_ (ix1 c)
      = ∑ r : Fin 100000, x (ix2 r c) := by
  refine (Ideal.hostReduceAdd_single reducesTo_S100000x128_S128_d0 (by decide) x _ (ix1 c)).trans ?_
  rw [constant_apply, Ideal.ofBits_zero_f32, zero_add]
  refine Finset.sum_congr rfl fun r _ => congrArg x ?_
  funext a; match a with | ⟨0, _⟩ => rfl | ⟨1, _⟩ => rfl

theorem meanR_apply (p : Arr Ideal S100000x128 .f32) (c : Fin 128) :
    meanR p (ix1 c) = Ideal.div (∑ r : Fin 100000, p (ix2 r c)) (Ideal.ofBits .f32 0x47C35000#32) :=
  congrArg (Ideal.div · _) (colSum_apply p c)

theorem statsG_row0 (p : Arr Ideal S100000x128 .f32) (c : Fin 128) :
    statsG p (ix2 (0 : Fin 2) c) = ∑ r : Fin 100000, p (ix2 r c) := if_pos rfl
theorem statsG_row1 (p : Arr Ideal S100000x128 .f32) (c : Fin 128) :
    statsG p (ix2 (1 : Fin 2) c) = ∑ r : Fin 100000, p (ix2 r c) * p (ix2 r c) :=
  if_neg (show ¬ ((1 : Fin 2) : ℕ) = 0 by decide)

theorem meanK_apply (st : Arr Ideal Cert.KernelIdeal.S2x128 .f32) (c : Fin 128) :
    meanK st (ix1 c) = Ideal.div (st (ix2 (0 : Fin 2) c)) (Ideal.ofBits .f32 0x47C35000#32) :=
  congrArg (Ideal.div · _) ((shapeCast_1a_a_apply _ _ c).trans (slice2_axis0_apply 0 st _ 0 c 0 rfl))

theorem scaleK_apply (st : Arr Ideal Cert.KernelIdeal.S2x128 .f32) (g : Arr Ideal S128 .f32) (c : Fin 128) :
    scaleK st g (ix1 c)
      = g (ix1 c) * Ideal.rsqrt (Ideal.div (st (ix2 (1 : Fin 2) c)) (Ideal.ofBits .f32 0x47C35000#32)
          - meanK st (ix1 c) * meanK st (ix1 c) + Ideal.ofBits .f32 0x3727C5AC#32) :=
  congrArg (fun t => g (ix1 c) * Ideal.rsqrt (Ideal.div t _ - _ + _))
    ((shapeCast_1a_a_apply _ _ c).trans (slice2_axis0_apply 1 st _ 0 c 1 rfl))

def colMean (f : Fin 100000 → ℝ) : ℝ := (∑ k, f k) * (1 / 100000)
def colVar (f : Fin 100000 → ℝ) : ℝ := (∑ k, (f k - colMean f) * (f k - colMean f)) * (1 / 100000)
/-- G · (x − E f) / √(Var f + e) + B. -/
def bnReal (f : Fin 100000 → ℝ) (G B e x : ℝ) : ℝ := G * (x - colMean f) * (Real.sqrt (colVar f + e))⁻¹ + B

/-- Var f = E[f²] − (E f)². -/
theorem colVar_eq (f : Fin 100000 → ℝ) : (∑ k, f k * f k) * (1 / 100000) - colMean f * colMean f = colVar f := by
  have h : ∀ k, (f k - colMean f) * (f k - colMean f) = f k * f k - 2 * colMean f * f k + colMean f * colMean f :=
    fun k => by ring
  unfold colVar
  simp only [h]
  rw [Finset.sum_add_distrib, Finset.sum_sub_distrib, ← Finset.mul_sum, Finset.sum_const, Finset.card_univ,
    Fintype.card_fin, nsmul_eq_mul]
  unfold colMean
  push_cast
  ring

theorem div_rows (x : ℝ) : Ideal.div (x : EReal) ((100000 : ℝ) : EReal) = ((x * (1 / 100000) : ℝ) : EReal) := by
  rw [Ideal.div_coe (by norm_num : (100000 : ℝ) ≠ 0), ← EReal.coe_mul]

theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem colVar_pos (f : Fin 100000 → ℝ) {e : ℝ} (he : 0 < e) : 0 < colVar f + e :=
  add_pos_of_nonneg_of_pos (mul_nonneg (Finset.sum_nonneg fun _ _ => mul_self_nonneg _) (by norm_num)) he

theorem mean_column (f : Fin 100000 → ℝ) : Ideal.div (∑ k, (f k : EReal)) ((100000 : ℝ) : EReal) = (colMean f : EReal) := by
  rw [coe_sum, div_rows]; rfl

theorem ref_column (f : Fin 100000 → ℝ) (G B e x : ℝ) (he : 0 < e) :
    ((G : EReal) * ((x : EReal) - (colMean f : EReal)))
        * Ideal.rsqrt (Ideal.div (∑ k, ((f k : EReal) - (colMean f : EReal)) * ((f k : EReal) - (colMean f : EReal))) ((100000 : ℝ) : EReal) + (e : EReal))
        + (B : EReal) = (bnReal f G B e x : EReal) := by
  simp only [← EReal.coe_sub, ← EReal.coe_mul]
  rw [coe_sum, div_rows, ← EReal.coe_add]
  rw [show (∑ k, (f k - colMean f) * (f k - colMean f)) * (1 / 100000) = colVar f from rfl, rsqrt_pos (colVar_pos f he),
    ← EReal.coe_mul, ← EReal.coe_add]
  rfl

theorem ker_column (f : Fin 100000 → ℝ) (G B e x : ℝ) (he : 0 < e) :
    (x : EReal) * ((G : EReal) * Ideal.rsqrt (Ideal.div (∑ k, (f k : EReal) * (f k : EReal)) ((100000 : ℝ) : EReal) - (colMean f : EReal) * (colMean f : EReal) + (e : EReal)))
        + ((B : EReal) - (colMean f : EReal) * ((G : EReal) * Ideal.rsqrt (Ideal.div (∑ k, (f k : EReal) * (f k : EReal)) ((100000 : ℝ) : EReal) - (colMean f : EReal) * (colMean f : EReal) + (e : EReal))))
      = (bnReal f G B e x : EReal) := by
  simp only [← EReal.coe_mul]
  rw [coe_sum, div_rows, ← EReal.coe_sub, colVar_eq, ← EReal.coe_add, rsqrt_pos (colVar_pos f he)]
  simp only [← EReal.coe_mul, ← EReal.coe_sub, ← EReal.coe_add]
  refine congrArg (fun t : ℝ => (t : EReal)) ?_
  unfold bnReal
  ring

section Entry
variable {p : Arr Ideal S100000x128 .f32} {g be : Arr Ideal S128 .f32} {rp : S100000x128.Idx → ℝ} {rg rb : S128.Idx → ℝ}
  (hrp : ∀ i, p i = (rp i : EReal)) (hrg : ∀ i, g i = (rg i : EReal)) (hrb : ∀ i, be i = (rb i : EReal))
  {e : ℝ} (he : 0 < e) (heps : Ideal.ofBits .f32 0x3727C5AC#32 = (e : EReal)) (r : Fin 100000) (c : Fin 128)
include hrp hrg hrb he heps

theorem bnR_entry :
    bnR p g be (ix2 r c) = (bnReal (fun k => rp (ix2 k c)) (rg (ix1 c)) (rb (ix1 c)) e (rp (ix2 r c)) : EReal) := by
  have hM : meanR p (ix1 c) = (colMean (fun k => rp (ix2 k c)) : EReal) := by
    rw [meanR_apply, ofBits_rows]; simp only [hrp]; exact mean_column _
  unfold bnR
  rw [addf_apply, mulf_apply, mulf_apply, subf_apply, rowsOf_apply, rowsOf_apply, rowsOf_apply, rowsOf_apply]
  show _ * Ideal.rsqrt (Ideal.div (Host.reduceAdd (F := Ideal) _ (constant S_ .f32 0x00000000#32) reducesTo_S100000x128_S128_d0 h_S_ (ix1 c)) (Ideal.ofBits .f32 0x47C35000#32) + Ideal.ofBits .f32 0x3727C5AC#32) + _ = _
  rw [colSum_apply, ofBits_rows, heps]
  simp only [mulf_apply, subf_apply, rowsOf_apply, hM, hrp, hrg, hrb]
  exact ref_column (fun k => rp (ix2 k c)) _ _ e _ he

theorem affG_entry :
    affG p (asRow (scaleK (statsG p) g)) (asRow (shiftK (statsG p) g be)) (ix2 r c)
      = (bnReal (fun k => rp (ix2 k c)) (rg (ix1 c)) (rb (ix1 c)) e (rp (ix2 r c)) : EReal) := by
  have hM : meanK (statsG p) (ix1 c) = (colMean (fun k => rp (ix2 k c)) : EReal) := by
    rw [meanK_apply, statsG_row0, ofBits_rows]; simp only [hrp]; exact mean_column _
  show p (ix2 r c) * asRow _ (ix2 (0 : Fin 1) c) + asRow _ (ix2 (0 : Fin 1) c) = _
  rw [asRow_apply, asRow_apply]
  show _ * scaleK _ g (ix1 c) + (be (ix1 c) - meanK _ (ix1 c) * scaleK _ g (ix1 c)) = _
  rw [scaleK_apply, statsG_row1, hM, ofBits_rows, heps]
  simp only [hrp, hrg, hrb]
  exact ker_column (fun k => rp (ix2 k c)) _ _ e _ he

end Entry

/-- For real p, gamma, beta: bnR p is real and equals p · scale + shift, scale and shift taken from Σp and Σp². -/
theorem bnR_real (p : Arr Ideal S100000x128 .f32) (g be : Arr Ideal S128 .f32) (hp : IsReal p) (hg : IsReal g) (hbe : IsReal be) :
    IsReal (bnR p g be) ∧ bnR p g be = affG p (asRow (scaleK (statsG p) g)) (asRow (shiftK (statsG p) g be)) := by
  unfold IsReal Re at hp hg hbe
  choose rp hrp using hp
  choose rg hrg using hg
  choose rb hrb using hbe
  obtain ⟨e, he, heps⟩ := ofBits_eps
  have h1 := bnR_entry hrp hrg hrb he heps
  have h2 := affG_entry hrp hrg hrb he heps
  refine ⟨fun i => ?_, funext fun i => ?_⟩ <;>
    obtain ⟨r, c, rfl⟩ : ∃ (r : Fin 100000) (c : Fin 128), i = ix2 r c := ⟨i 0, i 1, eq_ix2 i⟩
  · exact ⟨_, h1 r c⟩
  · exact (h1 r c).trans (h2 r c).symm

end Cert.Spec

end
-- ==== Proof.Bridge.lean ====
import proofs.«418208_j66958540145299_1_alg».proof.Proof.PreRead
import proofs.«418208_j66958540145299_1_alg».proof.Proof.BatchNorm

noncomputable section

namespace Cert.Spec

open Cert.ReferenceIdeal Cert.ReferenceIdeal.Gen Idealize.ShloMosaic

/-- Per layer: real inputs and in-range indices give a real result, on which the two programs agree. -/
theorem layerK_eq_layerR (h : Arr Ideal S100000x128 .f32) (s d : Arr Ideal S1600000 .i32) (iv : Arr Ideal S100000x1 .f32)
    (wl wr : Arr Ideal S128x128 .f32) (b g be : Arr Ideal S128 .f32) (hh : IsReal h) (hs : SrcInRange s) (hiv : IsReal iv)
    (hwl : IsReal wl) (hwr : IsReal wr) (hb : IsReal b) (hg : IsReal g) (hbe : IsReal be) :
    IsReal (layerR h s d iv wl wr b g be) ∧ layerK h s d iv wl wr b g be = layerR h s d iv wl wr b g be := by
  have hl : IsReal (linR (sumTo (rowsR h s) d iv) h wl wr b) := by
    rw [linR_eq_linG]
    exact isReal_linG (isReal_sumTo (fun _ => hh _) hiv) hh hwl hwr (fun _ => hb _)
  unfold layerK layerR
  rw [Cert.PreRead.rowsK_eq_rowsR h s hs, ← linR_eq_linG]
  exact ⟨(bnR_real _ g be hl hg hbe).1, (bnR_real _ g be hl hg hbe).2.symm⟩

/-- Chain the three hidden layers, each result real so that the next layer applies, then the output layer. -/
theorem kerMain_eq_refMain_of_pre (x : Arr Ideal S100000x128 .f32) (ei : Arr Ideal S2x1600000 .i32)
    (Wl Wr : Arr Ideal S3x128x128 .f32) (b g be : Arr Ideal S3x128 .f32) (wlo wro : Arr Ideal S128x1 .f32) (bo : Arr Ideal S1 .f32)
    (h : Cert.Pre_finite_inputs.fn (F := Ideal) x ei Wl Wr b g be wlo wro bo = fun _ => 1#1) :
    kerMain x ei Wl Wr b g be wlo wro bo = refMain x ei Wl Wr b g be wlo wro bo := by
  obtain ⟨hx, hWl, hWr, hb, hg, hbe, -, -, -, hs⟩ := Cert.PreRead.of_pre x ei Wl Wr b g be wlo wro bo h
  have hiv := isReal_invDegOf (dstOf ei)
  obtain ⟨r1, e1⟩ := layerK_eq_layerR x (srcOf ei) (dstOf ei) _ (mat0 Wl) (mat0 Wr) (row0 b) (row0 g) (row0 be)
    hx hs hiv (fun _ => hWl _) (fun _ => hWr _) (fun _ => hb _) (fun _ => hg _) (fun _ => hbe _)
  obtain ⟨r2, e2⟩ := layerK_eq_layerR _ (srcOf ei) (dstOf ei) _ (mat1 Wl) (mat1 Wr) (row1 b) (row1 g) (row1 be)
    r1 hs hiv (fun _ => hWl _) (fun _ => hWr _) (fun _ => hb _) (fun _ => hg _) (fun _ => hbe _)
  obtain ⟨-, e3⟩ := layerK_eq_layerR _ (srcOf ei) (dstOf ei) _ (mat2 Wl) (mat2 Wr) (row2 b) (row2 g) (row2 be)
    r2 hs hiv (fun _ => hWl _) (fun _ => hWr _) (fun _ => hb _) (fun _ => hg _) (fun _ => hbe _)
  unfold kerMain refMain
  rw [e1, e2, e3, Cert.PreRead.rowsK_eq_rowsR _ _ hs, outR_eq_sigG]

end Cert.Spec

end
-- ==== Proof.lean ====
import proofs.«418208_j66958540145299_1_alg».proof.Defs
import proofs.«418208_j66958540145299_1_alg».proof.Proof.Gen.Kernel
import proofs.«418208_j66958540145299_1_alg».proof.Proof.Gen.KernelIdeal
import proofs.«418208_j66958540145299_1_alg».proof.Proof.Gen.ReferenceIdeal
import proofs.«418208_j66958540145299_1_alg».proof.Proof.Gen.Pre_finite_inputs
import proofs.«418208_j66958540145299_1_alg».proof.Proof.K.Kept
import proofs.«418208_j66958540145299_1_alg».proof.Proof.KI.Kept
import proofs.«418208_j66958540145299_1_alg».proof.Proof.KI.Thread
import proofs.«418208_j66958540145299_1_alg».proof.Proof.Ref.Run
import proofs.«418208_j66958540145299_1_alg».proof.Proof.Bridge
import Idealize.ShloMosaic.Adequacy
import Idealize.ShloMosaic.Init

noncomputable section

namespace Cert.Proof

open Idealize.ShloMosaic Idealize.ShloMosaic.TcCoe Idealize.SL.Sem

/-- No item of the word-level program writes one of its ten arguments: at the end of the run each holds its launch contents. -/
theorem frame_K : Cert.frame_Kernel := fun m ρ _ =>
  (θ_run Cert.Kernel.defs _ _).mono (fun r h c => have a := Cert.Kernel.Reg.args_kept m ρ c (h c)
    ⟨a _ (by decide), a _ (by decide), a _ (by decide), a _ (by decide), a _ (by decide), a _ (by decide), a _ (by decide), a _ (by decide), a _ (by decide), a _ (by decide)⟩)
    (Cert.Kernel.Reg.run_all (F := Bits) m ρ)

theorem frame_KI : Cert.frame_KernelIdeal := fun m ρ _ =>
  (θ_run Cert.KernelIdeal.defs _ _).mono (fun r h c => have a := Cert.KernelIdeal.Reg.args_kept m ρ c (h c)
    ⟨a _ (by decide), a _ (by decide), a _ (by decide), a _ (by decide), a _ (by decide), a _ (by decide), a _ (by decide), a _ (by decide), a _ (by decide), a _ (by decide)⟩)
    (Cert.KernelIdeal.Reg.run_all (F := Ideal) m ρ)

/-- The reference's run with its result dropped. -/
theorem frame_R : Cert.frame_ReferenceIdeal := fun m ρ _ =>
  (θ_run Cert.ReferenceIdeal.defs _ _).mono (fun _ h c => (h c).2) (Cert.ReferenceIdeal.RefRun.run (F := Ideal) m ρ)

open Cert.KernelIdeal Cert.KernelIdeal.Reg in
/-- Both results are one function of the ten arguments: the kernel program's is kerMain of them, the reference's refMain,
    and under the precondition the two functions agree. -/
theorem algebraic : Cert.algebraic_KernelIdeal_ReferenceIdeal := by
  intro m ρ m' ρ' hpre hagree
  refine ⟨fun c => Cert.Spec.kerMain (arg m c main_arg0) (arg m c main_arg1) (arg m c main_arg2) (arg m c main_arg3) (arg m c main_arg4) (arg m c main_arg5) (arg m c main_arg6) (arg m c main_arg7) (arg m c main_arg8) (arg m c main_arg9), ?_, ?_⟩
  · exact (θ_run Cert.KernelIdeal.defs _ _).mono (fun r h c => have a := args_kept m ρ c (h c)
      ⟨(h c _ (mem_uc main_v134 (by decide))).trans (result_eq m ρ c), a _ (by decide), a _ (by decide), a _ (by decide), a _ (by decide), a _ (by decide), a _ (by decide), a _ (by decide), a _ (by decide), a _ (by decide), a _ (by decide)⟩)
      (run_all (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact (Cert.Spec.kerMain_eq_refMain_of_pre _ _ _ _ _ _ _ _ _ _ (hpre c)).symm

theorem claim : Cert.Claim := ⟨Cert.Kernel.Gen.facts, Cert.KernelIdeal.Gen.facts, Cert.ReferenceIdeal.Gen.facts, Cert.Pre_finite_inputs.Gen.facts,
  frame_K, frame_KI, frame_R, trivial, algebraic⟩

end Cert.Proof

end
